-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S1024x512 : Shape := ⟨2, ![1024, 512]⟩
abbrev S1x512 : Shape := ⟨2, ![1, 512]⟩
abbrev S256x512 : Shape := ⟨2, ![256, 512]⟩
abbrev S8x512 : Shape := ⟨2, ![8, 512]⟩
abbrev S8 : Shape := ⟨1, ![8]⟩
abbrev S_ : Shape := ⟨0, ![]⟩
abbrev S512 : Shape := ⟨1, ![512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S8x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .ne v2 c0_i32_7
  let v21 : BitVec 32 := Scalar.extui v20
  let c0_i32_8 : BitVec 32 := 0#32
  let v22 : BitVec 1 := Scalar.cmpi .ne v21 c0_i32_8
  v22

def k0_dev1 : Nat :=
  let c0_i32_21 : BitVec 32 := 0#32
  let c0_i32_19 : BitVec 32 := 0#32
  let c1_i32_20 : BitVec 32 := 1#32
  let v44 : BitVec 32 := Scalar.muli c0_i32_19 c1_i32_20
  let v45 : BitVec 32 := Scalar.addi c0_i32_21 v44
  v45.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v23 : BitVec 1 := Scalar.cmpi .ne v2 c1_i32_9
  let v24 : BitVec 32 := Scalar.extui v23
  let c0_i32_10 : BitVec 32 := 0#32
  let v25 : BitVec 1 := Scalar.cmpi .ne v24 c0_i32_10
  v25

def k0_dev2 : Nat :=
  let c0_i32_21 : BitVec 32 := 0#32
  let c1_i32_19 : BitVec 32 := 1#32
  let c1_i32_20 : BitVec 32 := 1#32
  let v44 : BitVec 32 := Scalar.muli c1_i32_19 c1_i32_20
  let v45 : BitVec 32 := Scalar.addi c0_i32_21 v44
  v45.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 1 := Scalar.cmpi .ne v2 c2_i32
  let v27 : BitVec 32 := Scalar.extui v26
  let c0_i32_11 : BitVec 32 := 0#32
  let v28 : BitVec 1 := Scalar.cmpi .ne v27 c0_i32_11
  v28

def k0_dev3 : Nat :=
  let c0_i32_21 : BitVec 32 := 0#32
  let c2_i32_19 : BitVec 32 := 2#32
  let c1_i32_20 : BitVec 32 := 1#32
  let v44 : BitVec 32 := Scalar.muli c2_i32_19 c1_i32_20
  let v45 : BitVec 32 := Scalar.addi c0_i32_21 v44
  v45.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_12 : BitVec 32 := 3#32
  let v29 : BitVec 1 := Scalar.cmpi .ne v2 c3_i32_12
  let v30 : BitVec 32 := Scalar.extui v29
  let c0_i32_13 : BitVec 32 := 0#32
  let v31 : BitVec 1 := Scalar.cmpi .ne v30 c0_i32_13
  v31

def k0_dev4 : Nat :=
  let c0_i32_21 : BitVec 32 := 0#32
  let c3_i32_19 : BitVec 32 := 3#32
  let c1_i32_20 : BitVec 32 := 1#32
  let v44 : BitVec 32 := Scalar.muli c3_i32_19 c1_i32_20
  let v45 : BitVec 32 := Scalar.addi c0_i32_21 v44
  v45.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v32 : BitVec 1 := Scalar.cmpi .ne v2 c4_i32
  let v33 : BitVec 32 := Scalar.extui v32
  let c0_i32_14 : BitVec 32 := 0#32
  let v34 : BitVec 1 := Scalar.cmpi .ne v33 c0_i32_14
  v34

def k0_dev5 : Nat :=
  let c0_i32_21 : BitVec 32 := 0#32
  let c4_i32_19 : BitVec 32 := 4#32
  let c1_i32_20 : BitVec 32 := 1#32
  let v44 : BitVec 32 := Scalar.muli c4_i32_19 c1_i32_20
  let v45 : BitVec 32 := Scalar.addi c0_i32_21 v44
  v45.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v35 : BitVec 1 := Scalar.cmpi .ne v2 c5_i32
  let v36 : BitVec 32 := Scalar.extui v35
  let c0_i32_15 : BitVec 32 := 0#32
  let v37 : BitVec 1 := Scalar.cmpi .ne v36 c0_i32_15
  v37

def k0_dev6 : Nat :=
  let c0_i32_21 : BitVec 32 := 0#32
  let c5_i32_19 : BitVec 32 := 5#32
  let c1_i32_20 : BitVec 32 := 1#32
  let v44 : BitVec 32 := Scalar.muli c5_i32_19 c1_i32_20
  let v45 : BitVec 32 := Scalar.addi c0_i32_21 v44
  v45.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v38 : BitVec 1 := Scalar.cmpi .ne v2 c6_i32
  let v39 : BitVec 32 := Scalar.extui v38
  let c0_i32_16 : BitVec 32 := 0#32
  let v40 : BitVec 1 := Scalar.cmpi .ne v39 c0_i32_16
  v40

def k0_dev7 : Nat :=
  let c0_i32_21 : BitVec 32 := 0#32
  let c6_i32_19 : BitVec 32 := 6#32
  let c1_i32_20 : BitVec 32 := 1#32
  let v44 : BitVec 32 := Scalar.muli c6_i32_19 c1_i32_20
  let v45 : BitVec 32 := Scalar.addi c0_i32_21 v44
  v45.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v41 : BitVec 1 := Scalar.cmpi .ne v2 c7_i32
  let v42 : BitVec 32 := Scalar.extui v41
  let c0_i32_17 : BitVec 32 := 0#32
  let v43 : BitVec 1 := Scalar.cmpi .ne v42 c0_i32_17
  v43

def k0_dev8 : Nat :=
  let c0_i32_21 : BitVec 32 := 0#32
  let c7_i32_19 : BitVec 32 := 7#32
  let c1_i32_20 : BitVec 32 := 1#32
  let v44 : BitVec 32 := Scalar.muli c7_i32_19 c1_i32_20
  let v45 : BitVec 32 := Scalar.addi c0_i32_21 v44
  v45.toNat
def k0_cond12 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_6 : BitVec 32 := 0#32
  let v19 : BitVec 1 := Scalar.cmpi .ne v18 c0_i32_6
  v19

def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v20 : BitVec 32 := Scalar.xori v2 c6_i32
  let c0_i32_7 : BitVec 32 := 0#32
  let v21 : BitVec 1 := Scalar.cmpi .eq v20 c0_i32_7
  let v22 : BitVec 32 := Scalar.extui v21
  let c0_i32_8 : BitVec 32 := 0#32
  let v23 : BitVec 1 := Scalar.cmpi .ne v22 c0_i32_8
  v23

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev9 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_9 : BitVec 32 := 6#32
  let v24 : BitVec 32 := Scalar.xori v2 c6_i32_9
  let c1_i32_10 : BitVec 32 := 1#32
  let v25 : BitVec 1 := Scalar.cmpi .eq v24 c1_i32_10
  let v26 : BitVec 32 := Scalar.extui v25
  let c0_i32_11 : BitVec 32 := 0#32
  let v27 : BitVec 1 := Scalar.cmpi .ne v26 c0_i32_11
  v27

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev10 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_12 : BitVec 32 := 6#32
  let v28 : BitVec 32 := Scalar.xori v2 c6_i32_12
  let c2_i32 : BitVec 32 := 2#32
  let v29 : BitVec 1 := Scalar.cmpi .eq v28 c2_i32
  let v30 : BitVec 32 := Scalar.extui v29
  let c0_i32_13 : BitVec 32 := 0#32
  let v31 : BitVec 1 := Scalar.cmpi .ne v30 c0_i32_13
  v31

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev11 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_14 : BitVec 32 := 6#32
  let v32 : BitVec 32 := Scalar.xori v2 c6_i32_14
  let c3_i32_15 : BitVec 32 := 3#32
  let v33 : BitVec 1 := Scalar.cmpi .eq v32 c3_i32_15
  let v34 : BitVec 32 := Scalar.extui v33
  let c0_i32_16 : BitVec 32 := 0#32
  let v35 : BitVec 1 := Scalar.cmpi .ne v34 c0_i32_16
  v35

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev12 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_17 : BitVec 32 := 6#32
  let v36 : BitVec 32 := Scalar.xori v2 c6_i32_17
  let c4_i32 : BitVec 32 := 4#32
  let v37 : BitVec 1 := Scalar.cmpi .eq v36 c4_i32
  let v38 : BitVec 32 := Scalar.extui v37
  let c0_i32_18 : BitVec 32 := 0#32
  let v39 : BitVec 1 := Scalar.cmpi .ne v38 c0_i32_18
  v39

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev13 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_19 : BitVec 32 := 6#32
  let v40 : BitVec 32 := Scalar.xori v2 c6_i32_19
  let c5_i32 : BitVec 32 := 5#32
  let v41 : BitVec 1 := Scalar.cmpi .eq v40 c5_i32
  let v42 : BitVec 32 := Scalar.extui v41
  let c0_i32_20 : BitVec 32 := 0#32
  let v43 : BitVec 1 := Scalar.cmpi .ne v42 c0_i32_20
  v43

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev14 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_21 : BitVec 32 := 6#32
  let v44 : BitVec 32 := Scalar.xori v2 c6_i32_21
  let c6_i32_22 : BitVec 32 := 6#32
  let v45 : BitVec 1 := Scalar.cmpi .eq v44 c6_i32_22
  let v46 : BitVec 32 := Scalar.extui v45
  let c0_i32_23 : BitVec 32 := 0#32
  let v47 : BitVec 1 := Scalar.cmpi .ne v46 c0_i32_23
  v47

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev15 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_24 : BitVec 32 := 6#32
  let v48 : BitVec 32 := Scalar.xori v2 c6_i32_24
  let c7_i32_25 : BitVec 32 := 7#32
  let v49 : BitVec 1 := Scalar.cmpi .eq v48 c7_i32_25
  let v50 : BitVec 32 := Scalar.extui v49
  let c0_i32_26 : BitVec 32 := 0#32
  let v51 : BitVec 1 := Scalar.cmpi .ne v50 c0_i32_26
  v51

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev16 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_27 : BitVec 32 := 2#32
  let v52 : BitVec 32 := Scalar.xori v2 c2_i32_27
  let c0_i32_28 : BitVec 32 := 0#32
  let v53 : BitVec 1 := Scalar.cmpi .eq v52 c0_i32_28
  let v54 : BitVec 32 := Scalar.extui v53
  let c0_i32_29 : BitVec 32 := 0#32
  let v55 : BitVec 1 := Scalar.cmpi .ne v54 c0_i32_29
  v55

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev17 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_30 : BitVec 32 := 2#32
  let v56 : BitVec 32 := Scalar.xori v2 c2_i32_30
  let c1_i32_31 : BitVec 32 := 1#32
  let v57 : BitVec 1 := Scalar.cmpi .eq v56 c1_i32_31
  let v58 : BitVec 32 := Scalar.extui v57
  let c0_i32_32 : BitVec 32 := 0#32
  let v59 : BitVec 1 := Scalar.cmpi .ne v58 c0_i32_32
  v59

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev18 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_33 : BitVec 32 := 2#32
  let v60 : BitVec 32 := Scalar.xori v2 c2_i32_33
  let c2_i32_34 : BitVec 32 := 2#32
  let v61 : BitVec 1 := Scalar.cmpi .eq v60 c2_i32_34
  let v62 : BitVec 32 := Scalar.extui v61
  let c0_i32_35 : BitVec 32 := 0#32
  let v63 : BitVec 1 := Scalar.cmpi .ne v62 c0_i32_35
  v63

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev19 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v64 : BitVec 32 := Scalar.xori v2 c2_i32_36
  let c3_i32_37 : BitVec 32 := 3#32
  let v65 : BitVec 1 := Scalar.cmpi .eq v64 c3_i32_37
  let v66 : BitVec 32 := Scalar.extui v65
  let c0_i32_38 : BitVec 32 := 0#32
  let v67 : BitVec 1 := Scalar.cmpi .ne v66 c0_i32_38
  v67

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev20 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v68 : BitVec 32 := Scalar.xori v2 c2_i32_39
  let c4_i32_40 : BitVec 32 := 4#32
  let v69 : BitVec 1 := Scalar.cmpi .eq v68 c4_i32_40
  let v70 : BitVec 32 := Scalar.extui v69
  let c0_i32_41 : BitVec 32 := 0#32
  let v71 : BitVec 1 := Scalar.cmpi .ne v70 c0_i32_41
  v71

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev21 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v72 : BitVec 32 := Scalar.xori v2 c2_i32_42
  let c5_i32_43 : BitVec 32 := 5#32
  let v73 : BitVec 1 := Scalar.cmpi .eq v72 c5_i32_43
  let v74 : BitVec 32 := Scalar.extui v73
  let c0_i32_44 : BitVec 32 := 0#32
  let v75 : BitVec 1 := Scalar.cmpi .ne v74 c0_i32_44
  v75

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev22 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v76 : BitVec 32 := Scalar.xori v2 c2_i32_45
  let c6_i32_46 : BitVec 32 := 6#32
  let v77 : BitVec 1 := Scalar.cmpi .eq v76 c6_i32_46
  let v78 : BitVec 32 := Scalar.extui v77
  let c0_i32_47 : BitVec 32 := 0#32
  let v79 : BitVec 1 := Scalar.cmpi .ne v78 c0_i32_47
  v79

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev23 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_48 : BitVec 32 := 2#32
  let v80 : BitVec 32 := Scalar.xori v2 c2_i32_48
  let c7_i32_49 : BitVec 32 := 7#32
  let v81 : BitVec 1 := Scalar.cmpi .eq v80 c7_i32_49
  let v82 : BitVec 32 := Scalar.extui v81
  let c0_i32_50 : BitVec 32 := 0#32
  let v83 : BitVec 1 := Scalar.cmpi .ne v82 c0_i32_50
  v83

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev24 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_51 : BitVec 32 := 5#32
  let v84 : BitVec 32 := Scalar.xori v2 c5_i32_51
  let c0_i32_52 : BitVec 32 := 0#32
  let v85 : BitVec 1 := Scalar.cmpi .eq v84 c0_i32_52
  let v86 : BitVec 32 := Scalar.extui v85
  let c0_i32_53 : BitVec 32 := 0#32
  let v87 : BitVec 1 := Scalar.cmpi .ne v86 c0_i32_53
  v87

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev25 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_54 : BitVec 32 := 5#32
  let v88 : BitVec 32 := Scalar.xori v2 c5_i32_54
  let c1_i32_55 : BitVec 32 := 1#32
  let v89 : BitVec 1 := Scalar.cmpi .eq v88 c1_i32_55
  let v90 : BitVec 32 := Scalar.extui v89
  let c0_i32_56 : BitVec 32 := 0#32
  let v91 : BitVec 1 := Scalar.cmpi .ne v90 c0_i32_56
  v91

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev26 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_57 : BitVec 32 := 5#32
  let v92 : BitVec 32 := Scalar.xori v2 c5_i32_57
  let c2_i32_58 : BitVec 32 := 2#32
  let v93 : BitVec 1 := Scalar.cmpi .eq v92 c2_i32_58
  let v94 : BitVec 32 := Scalar.extui v93
  let c0_i32_59 : BitVec 32 := 0#32
  let v95 : BitVec 1 := Scalar.cmpi .ne v94 c0_i32_59
  v95

def k0_off37 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev27 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_60 : BitVec 32 := 5#32
  let v96 : BitVec 32 := Scalar.xori v2 c5_i32_60
  let c3_i32_61 : BitVec 32 := 3#32
  let v97 : BitVec 1 := Scalar.cmpi .eq v96 c3_i32_61
  let v98 : BitVec 32 := Scalar.extui v97
  let c0_i32_62 : BitVec 32 := 0#32
  let v99 : BitVec 1 := Scalar.cmpi .ne v98 c0_i32_62
  v99

def k0_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev28 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v100 : BitVec 32 := Scalar.xori v2 c5_i32_63
  let c4_i32_64 : BitVec 32 := 4#32
  let v101 : BitVec 1 := Scalar.cmpi .eq v100 c4_i32_64
  let v102 : BitVec 32 := Scalar.extui v101
  let c0_i32_65 : BitVec 32 := 0#32
  let v103 : BitVec 1 := Scalar.cmpi .ne v102 c0_i32_65
  v103

def k0_off41 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev29 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_66 : BitVec 32 := 5#32
  let v104 : BitVec 32 := Scalar.xori v2 c5_i32_66
  let c5_i32_67 : BitVec 32 := 5#32
  let v105 : BitVec 1 := Scalar.cmpi .eq v104 c5_i32_67
  let v106 : BitVec 32 := Scalar.extui v105
  let c0_i32_68 : BitVec 32 := 0#32
  let v107 : BitVec 1 := Scalar.cmpi .ne v106 c0_i32_68
  v107

def k0_off43 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev30 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v108 : BitVec 32 := Scalar.xori v2 c5_i32_69
  let c6_i32_70 : BitVec 32 := 6#32
  let v109 : BitVec 1 := Scalar.cmpi .eq v108 c6_i32_70
  let v110 : BitVec 32 := Scalar.extui v109
  let c0_i32_71 : BitVec 32 := 0#32
  let v111 : BitVec 1 := Scalar.cmpi .ne v110 c0_i32_71
  v111

def k0_off45 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev31 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v112 : BitVec 32 := Scalar.xori v2 c5_i32_72
  let c7_i32_73 : BitVec 32 := 7#32
  let v113 : BitVec 1 := Scalar.cmpi .eq v112 c7_i32_73
  let v114 : BitVec 32 := Scalar.extui v113
  let c0_i32_74 : BitVec 32 := 0#32
  let v115 : BitVec 1 := Scalar.cmpi .ne v114 c0_i32_74
  v115

def k0_off47 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev32 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_75 : BitVec 32 := 7#32
  let v116 : BitVec 32 := Scalar.xori v2 c7_i32_75
  let c0_i32_76 : BitVec 32 := 0#32
  let v117 : BitVec 1 := Scalar.cmpi .eq v116 c0_i32_76
  let v118 : BitVec 32 := Scalar.extui v117
  let c0_i32_77 : BitVec 32 := 0#32
  let v119 : BitVec 1 := Scalar.cmpi .ne v118 c0_i32_77
  v119

def k0_off49 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev33 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_78 : BitVec 32 := 7#32
  let v120 : BitVec 32 := Scalar.xori v2 c7_i32_78
  let c1_i32_79 : BitVec 32 := 1#32
  let v121 : BitVec 1 := Scalar.cmpi .eq v120 c1_i32_79
  let v122 : BitVec 32 := Scalar.extui v121
  let c0_i32_80 : BitVec 32 := 0#32
  let v123 : BitVec 1 := Scalar.cmpi .ne v122 c0_i32_80
  v123

def k0_off51 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev34 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_81 : BitVec 32 := 7#32
  let v124 : BitVec 32 := Scalar.xori v2 c7_i32_81
  let c2_i32_82 : BitVec 32 := 2#32
  let v125 : BitVec 1 := Scalar.cmpi .eq v124 c2_i32_82
  let v126 : BitVec 32 := Scalar.extui v125
  let c0_i32_83 : BitVec 32 := 0#32
  let v127 : BitVec 1 := Scalar.cmpi .ne v126 c0_i32_83
  v127

def k0_off53 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev35 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_84 : BitVec 32 := 7#32
  let v128 : BitVec 32 := Scalar.xori v2 c7_i32_84
  let c3_i32_85 : BitVec 32 := 3#32
  let v129 : BitVec 1 := Scalar.cmpi .eq v128 c3_i32_85
  let v130 : BitVec 32 := Scalar.extui v129
  let c0_i32_86 : BitVec 32 := 0#32
  let v131 : BitVec 1 := Scalar.cmpi .ne v130 c0_i32_86
  v131

def k0_off55 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev36 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_87 : BitVec 32 := 7#32
  let v132 : BitVec 32 := Scalar.xori v2 c7_i32_87
  let c4_i32_88 : BitVec 32 := 4#32
  let v133 : BitVec 1 := Scalar.cmpi .eq v132 c4_i32_88
  let v134 : BitVec 32 := Scalar.extui v133
  let c0_i32_89 : BitVec 32 := 0#32
  let v135 : BitVec 1 := Scalar.cmpi .ne v134 c0_i32_89
  v135

def k0_off57 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev37 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_90 : BitVec 32 := 7#32
  let v136 : BitVec 32 := Scalar.xori v2 c7_i32_90
  let c5_i32_91 : BitVec 32 := 5#32
  let v137 : BitVec 1 := Scalar.cmpi .eq v136 c5_i32_91
  let v138 : BitVec 32 := Scalar.extui v137
  let c0_i32_92 : BitVec 32 := 0#32
  let v139 : BitVec 1 := Scalar.cmpi .ne v138 c0_i32_92
  v139

def k0_off59 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev38 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_93 : BitVec 32 := 7#32
  let v140 : BitVec 32 := Scalar.xori v2 c7_i32_93
  let c6_i32_94 : BitVec 32 := 6#32
  let v141 : BitVec 1 := Scalar.cmpi .eq v140 c6_i32_94
  let v142 : BitVec 32 := Scalar.extui v141
  let c0_i32_95 : BitVec 32 := 0#32
  let v143 : BitVec 1 := Scalar.cmpi .ne v142 c0_i32_95
  v143

def k0_off61 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev39 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_96 : BitVec 32 := 7#32
  let v144 : BitVec 32 := Scalar.xori v2 c7_i32_96
  let c7_i32_97 : BitVec 32 := 7#32
  let v145 : BitVec 1 := Scalar.cmpi .eq v144 c7_i32_97
  let v146 : BitVec 32 := Scalar.extui v145
  let c0_i32_98 : BitVec 32 := 0#32
  let v147 : BitVec 1 := Scalar.cmpi .ne v146 c0_i32_98
  v147

def k0_off63 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev40 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_99 : BitVec 32 := 1#32
  let v148 : BitVec 32 := Scalar.xori v2 c1_i32_99
  let c0_i32_100 : BitVec 32 := 0#32
  let v149 : BitVec 1 := Scalar.cmpi .eq v148 c0_i32_100
  let v150 : BitVec 32 := Scalar.extui v149
  let c0_i32_101 : BitVec 32 := 0#32
  let v151 : BitVec 1 := Scalar.cmpi .ne v150 c0_i32_101
  v151

def k0_off65 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev41 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v152 : BitVec 32 := Scalar.xori v2 c1_i32_102
  let c1_i32_103 : BitVec 32 := 1#32
  let v153 : BitVec 1 := Scalar.cmpi .eq v152 c1_i32_103
  let v154 : BitVec 32 := Scalar.extui v153
  let c0_i32_104 : BitVec 32 := 0#32
  let v155 : BitVec 1 := Scalar.cmpi .ne v154 c0_i32_104
  v155

def k0_off67 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev42 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_105 : BitVec 32 := 1#32
  let v156 : BitVec 32 := Scalar.xori v2 c1_i32_105
  let c2_i32_106 : BitVec 32 := 2#32
  let v157 : BitVec 1 := Scalar.cmpi .eq v156 c2_i32_106
  let v158 : BitVec 32 := Scalar.extui v157
  let c0_i32_107 : BitVec 32 := 0#32
  let v159 : BitVec 1 := Scalar.cmpi .ne v158 c0_i32_107
  v159

def k0_off69 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev43 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v160 : BitVec 32 := Scalar.xori v2 c1_i32_108
  let c3_i32_109 : BitVec 32 := 3#32
  let v161 : BitVec 1 := Scalar.cmpi .eq v160 c3_i32_109
  let v162 : BitVec 32 := Scalar.extui v161
  let c0_i32_110 : BitVec 32 := 0#32
  let v163 : BitVec 1 := Scalar.cmpi .ne v162 c0_i32_110
  v163

def k0_off71 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev44 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_111 : BitVec 32 := 1#32
  let v164 : BitVec 32 := Scalar.xori v2 c1_i32_111
  let c4_i32_112 : BitVec 32 := 4#32
  let v165 : BitVec 1 := Scalar.cmpi .eq v164 c4_i32_112
  let v166 : BitVec 32 := Scalar.extui v165
  let c0_i32_113 : BitVec 32 := 0#32
  let v167 : BitVec 1 := Scalar.cmpi .ne v166 c0_i32_113
  v167

def k0_off73 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev45 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v168 : BitVec 32 := Scalar.xori v2 c1_i32_114
  let c5_i32_115 : BitVec 32 := 5#32
  let v169 : BitVec 1 := Scalar.cmpi .eq v168 c5_i32_115
  let v170 : BitVec 32 := Scalar.extui v169
  let c0_i32_116 : BitVec 32 := 0#32
  let v171 : BitVec 1 := Scalar.cmpi .ne v170 c0_i32_116
  v171

def k0_off75 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev46 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v172 : BitVec 32 := Scalar.xori v2 c1_i32_117
  let c6_i32_118 : BitVec 32 := 6#32
  let v173 : BitVec 1 := Scalar.cmpi .eq v172 c6_i32_118
  let v174 : BitVec 32 := Scalar.extui v173
  let c0_i32_119 : BitVec 32 := 0#32
  let v175 : BitVec 1 := Scalar.cmpi .ne v174 c0_i32_119
  v175

def k0_off77 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev47 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_120 : BitVec 32 := 1#32
  let v176 : BitVec 32 := Scalar.xori v2 c1_i32_120
  let c7_i32_121 : BitVec 32 := 7#32
  let v177 : BitVec 1 := Scalar.cmpi .eq v176 c7_i32_121
  let v178 : BitVec 32 := Scalar.extui v177
  let c0_i32_122 : BitVec 32 := 0#32
  let v179 : BitVec 1 := Scalar.cmpi .ne v178 c0_i32_122
  v179

def k0_off79 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev48 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v180 : BitVec 32 := Scalar.xori v2 c3_i32_123
  let c0_i32_124 : BitVec 32 := 0#32
  let v181 : BitVec 1 := Scalar.cmpi .eq v180 c0_i32_124
  let v182 : BitVec 32 := Scalar.extui v181
  let c0_i32_125 : BitVec 32 := 0#32
  let v183 : BitVec 1 := Scalar.cmpi .ne v182 c0_i32_125
  v183

def k0_off81 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev49 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v184 : BitVec 32 := Scalar.xori v2 c3_i32_126
  let c1_i32_127 : BitVec 32 := 1#32
  let v185 : BitVec 1 := Scalar.cmpi .eq v184 c1_i32_127
  let v186 : BitVec 32 := Scalar.extui v185
  let c0_i32_128 : BitVec 32 := 0#32
  let v187 : BitVec 1 := Scalar.cmpi .ne v186 c0_i32_128
  v187

def k0_off83 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev50 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_129 : BitVec 32 := 3#32
  let v188 : BitVec 32 := Scalar.xori v2 c3_i32_129
  let c2_i32_130 : BitVec 32 := 2#32
  let v189 : BitVec 1 := Scalar.cmpi .eq v188 c2_i32_130
  let v190 : BitVec 32 := Scalar.extui v189
  let c0_i32_131 : BitVec 32 := 0#32
  let v191 : BitVec 1 := Scalar.cmpi .ne v190 c0_i32_131
  v191

def k0_off85 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev51 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v192 : BitVec 32 := Scalar.xori v2 c3_i32_132
  let c3_i32_133 : BitVec 32 := 3#32
  let v193 : BitVec 1 := Scalar.cmpi .eq v192 c3_i32_133
  let v194 : BitVec 32 := Scalar.extui v193
  let c0_i32_134 : BitVec 32 := 0#32
  let v195 : BitVec 1 := Scalar.cmpi .ne v194 c0_i32_134
  v195

def k0_off87 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off88 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev52 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v196 : BitVec 32 := Scalar.xori v2 c3_i32_135
  let c4_i32_136 : BitVec 32 := 4#32
  let v197 : BitVec 1 := Scalar.cmpi .eq v196 c4_i32_136
  let v198 : BitVec 32 := Scalar.extui v197
  let c0_i32_137 : BitVec 32 := 0#32
  let v199 : BitVec 1 := Scalar.cmpi .ne v198 c0_i32_137
  v199

def k0_off89 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev53 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_138 : BitVec 32 := 3#32
  let v200 : BitVec 32 := Scalar.xori v2 c3_i32_138
  let c5_i32_139 : BitVec 32 := 5#32
  let v201 : BitVec 1 := Scalar.cmpi .eq v200 c5_i32_139
  let v202 : BitVec 32 := Scalar.extui v201
  let c0_i32_140 : BitVec 32 := 0#32
  let v203 : BitVec 1 := Scalar.cmpi .ne v202 c0_i32_140
  v203

def k0_off91 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev54 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_141 : BitVec 32 := 3#32
  let v204 : BitVec 32 := Scalar.xori v2 c3_i32_141
  let c6_i32_142 : BitVec 32 := 6#32
  let v205 : BitVec 1 := Scalar.cmpi .eq v204 c6_i32_142
  let v206 : BitVec 32 := Scalar.extui v205
  let c0_i32_143 : BitVec 32 := 0#32
  let v207 : BitVec 1 := Scalar.cmpi .ne v206 c0_i32_143
  v207

def k0_off93 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev55 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v208 : BitVec 32 := Scalar.xori v2 c3_i32_144
  let c7_i32_145 : BitVec 32 := 7#32
  let v209 : BitVec 1 := Scalar.cmpi .eq v208 c7_i32_145
  let v210 : BitVec 32 := Scalar.extui v209
  let c0_i32_146 : BitVec 32 := 0#32
  let v211 : BitVec 1 := Scalar.cmpi .ne v210 c0_i32_146
  v211

def k0_off95 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev56 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_147 : BitVec 32 := 4#32
  let v212 : BitVec 32 := Scalar.xori v2 c4_i32_147
  let c0_i32_148 : BitVec 32 := 0#32
  let v213 : BitVec 1 := Scalar.cmpi .eq v212 c0_i32_148
  let v214 : BitVec 32 := Scalar.extui v213
  let c0_i32_149 : BitVec 32 := 0#32
  let v215 : BitVec 1 := Scalar.cmpi .ne v214 c0_i32_149
  v215

def k0_off97 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev57 : Nat :=
  let c0_i32_214 : BitVec 32 := 0#32
  let c0_i32_212 : BitVec 32 := 0#32
  let c1_i32_213 : BitVec 32 := 1#32
  let v301 : BitVec 32 := Scalar.muli c0_i32_212 c1_i32_213
  let v302 : BitVec 32 := Scalar.addi c0_i32_214 v301
  v302.toNat
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_150 : BitVec 32 := 4#32
  let v216 : BitVec 32 := Scalar.xori v2 c4_i32_150
  let c1_i32_151 : BitVec 32 := 1#32
  let v217 : BitVec 1 := Scalar.cmpi .eq v216 c1_i32_151
  let v218 : BitVec 32 := Scalar.extui v217
  let c0_i32_152 : BitVec 32 := 0#32
  let v219 : BitVec 1 := Scalar.cmpi .ne v218 c0_i32_152
  v219

def k0_off99 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off100 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev58 : Nat :=
  let c0_i32_214 : BitVec 32 := 0#32
  let c1_i32_212 : BitVec 32 := 1#32
  let c1_i32_213 : BitVec 32 := 1#32
  let v301 : BitVec 32 := Scalar.muli c1_i32_212 c1_i32_213
  let v302 : BitVec 32 := Scalar.addi c0_i32_214 v301
  v302.toNat
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_153 : BitVec 32 := 4#32
  let v220 : BitVec 32 := Scalar.xori v2 c4_i32_153
  let c2_i32_154 : BitVec 32 := 2#32
  let v221 : BitVec 1 := Scalar.cmpi .eq v220 c2_i32_154
  let v222 : BitVec 32 := Scalar.extui v221
  let c0_i32_155 : BitVec 32 := 0#32
  let v223 : BitVec 1 := Scalar.cmpi .ne v222 c0_i32_155
  v223

def k0_off101 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev59 : Nat :=
  let c0_i32_214 : BitVec 32 := 0#32
  let c2_i32_212 : BitVec 32 := 2#32
  let c1_i32_213 : BitVec 32 := 1#32
  let v301 : BitVec 32 := Scalar.muli c2_i32_212 c1_i32_213
  let v302 : BitVec 32 := Scalar.addi c0_i32_214 v301
  v302.toNat
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_156 : BitVec 32 := 4#32
  let v224 : BitVec 32 := Scalar.xori v2 c4_i32_156
  let c3_i32_157 : BitVec 32 := 3#32
  let v225 : BitVec 1 := Scalar.cmpi .eq v224 c3_i32_157
  let v226 : BitVec 32 := Scalar.extui v225
  let c0_i32_158 : BitVec 32 := 0#32
  let v227 : BitVec 1 := Scalar.cmpi .ne v226 c0_i32_158
  v227

def k0_off103 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev60 : Nat :=
  let c0_i32_214 : BitVec 32 := 0#32
  let c3_i32_212 : BitVec 32 := 3#32
  let c1_i32_213 : BitVec 32 := 1#32
  let v301 : BitVec 32 := Scalar.muli c3_i32_212 c1_i32_213
  let v302 : BitVec 32 := Scalar.addi c0_i32_214 v301
  v302.toNat
def k0_cond65 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_159 : BitVec 32 := 4#32
  let v228 : BitVec 32 := Scalar.xori v2 c4_i32_159
  let c4_i32_160 : BitVec 32 := 4#32
  let v229 : BitVec 1 := Scalar.cmpi .eq v228 c4_i32_160
  let v230 : BitVec 32 := Scalar.extui v229
  let c0_i32_161 : BitVec 32 := 0#32
  let v231 : BitVec 1 := Scalar.cmpi .ne v230 c0_i32_161
  v231

def k0_off105 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev61 : Nat :=
  let c0_i32_214 : BitVec 32 := 0#32
  let c4_i32_212 : BitVec 32 := 4#32
  let c1_i32_213 : BitVec 32 := 1#32
  let v301 : BitVec 32 := Scalar.muli c4_i32_212 c1_i32_213
  let v302 : BitVec 32 := Scalar.addi c0_i32_214 v301
  v302.toNat
def k0_cond66 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_162 : BitVec 32 := 4#32
  let v232 : BitVec 32 := Scalar.xori v2 c4_i32_162
  let c5_i32_163 : BitVec 32 := 5#32
  let v233 : BitVec 1 := Scalar.cmpi .eq v232 c5_i32_163
  let v234 : BitVec 32 := Scalar.extui v233
  let c0_i32_164 : BitVec 32 := 0#32
  let v235 : BitVec 1 := Scalar.cmpi .ne v234 c0_i32_164
  v235

def k0_off107 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off108 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev62 : Nat :=
  let c0_i32_214 : BitVec 32 := 0#32
  let c5_i32_212 : BitVec 32 := 5#32
  let c1_i32_213 : BitVec 32 := 1#32
  let v301 : BitVec 32 := Scalar.muli c5_i32_212 c1_i32_213
  let v302 : BitVec 32 := Scalar.addi c0_i32_214 v301
  v302.toNat
def k0_cond67 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_165 : BitVec 32 := 4#32
  let v236 : BitVec 32 := Scalar.xori v2 c4_i32_165
  let c6_i32_166 : BitVec 32 := 6#32
  let v237 : BitVec 1 := Scalar.cmpi .eq v236 c6_i32_166
  let v238 : BitVec 32 := Scalar.extui v237
  let c0_i32_167 : BitVec 32 := 0#32
  let v239 : BitVec 1 := Scalar.cmpi .ne v238 c0_i32_167
  v239

def k0_off109 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off110 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev63 : Nat :=
  let c0_i32_214 : BitVec 32 := 0#32
  let c6_i32_212 : BitVec 32 := 6#32
  let c1_i32_213 : BitVec 32 := 1#32
  let v301 : BitVec 32 := Scalar.muli c6_i32_212 c1_i32_213
  let v302 : BitVec 32 := Scalar.addi c0_i32_214 v301
  v302.toNat
def k0_cond68 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v240 : BitVec 32 := Scalar.xori v2 c4_i32_168
  let c7_i32_169 : BitVec 32 := 7#32
  let v241 : BitVec 1 := Scalar.cmpi .eq v240 c7_i32_169
  let v242 : BitVec 32 := Scalar.extui v241
  let c0_i32_170 : BitVec 32 := 0#32
  let v243 : BitVec 1 := Scalar.cmpi .ne v242 c0_i32_170
  v243

def k0_off111 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off112 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_215 : BitVec 32 := 0#32
  ![v2.toNat, 0]
def k0_dev64 : Nat :=
  let c0_i32_214 : BitVec 32 := 0#32
  let c7_i32_212 : BitVec 32 := 7#32
  let c1_i32_213 : BitVec 32 := 1#32
  let v301 : BitVec 32 := Scalar.muli c7_i32_212 c1_i32_213
  let v302 : BitVec 32 := Scalar.addi c0_i32_214 v301
  v302.toNat
def k0_off113 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : Index := Scalar.indexCast v2
  let c0_173 : Index := 0#32
  ![v245.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S512 : S256x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hamt_7 : (7#32 : BitVec 32).msb = false
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x512_S1x512_0_0 : ∀ a, (![0, 0] : Fin 2 → Nat) a + S1x512.size a ≤ S8x512.size a
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  inb_S8x512_S8x512_0_0 : ∀ a, (![0, 0] : Fin 2 → Nat) a + S8x512.size a ≤ S8x512.size a
  h_S8x512 : 0 < S8x512.numel
  reduces_S8x512_S512 : S8x512.Reduces [0] S512
  hcc0_scratch2 : 3 + S8.numel ≤ 19
  hcc0_scratch3 : 11 + S8.numel ≤ 19
  hrank0 : 0 < grid0.rank
  k0_dev1_lt : ∀ (i : grid0.Coords) (d0 : Dev nD), ∀ (k0_h1 : k0_cond1 i = 1#1), ∀ (k0_h2 : k0_cond2 d0 = 1#1), k0_dev1 < nD
  k0_dev2_lt : ∀ (i : grid0.Coords) (d0 : Dev nD), ∀ (k0_h1 : k0_cond1 i = 1#1), ∀ (k0_h3 : k0_cond3 d0 = 1#1), k0_dev2 < nD
  k0_dev3_lt : ∀ (i : grid0.Coords) (d0 : Dev nD), ∀ (k0_h1 : k0_cond1 i = 1#1), ∀ (k0_h4 : k0_cond4 d0 = 1#1), k0_dev3 < nD
  k0_dev4_lt : ∀ (i : grid0.Coords) (d0 : Dev nD), ∀ (k0_h1 : k0_cond1 i = 1#1), ∀ (k0_h5 : k0_cond5 d0 = 1#1), k0_dev4 < nD
  k0_dev5_lt : ∀ (i : grid0.Coords) (d0 : Dev nD), ∀ (k0_h1 : k0_cond1 i = 1#1), ∀ (k0_h6 : k0_cond6 d0 = 1#1), k0_dev5 < nD
  k0_dev6_lt : ∀ (i : grid0.Coords) (d0 : Dev nD), ∀ (k0_h1 : k0_cond1 i = 1#1), ∀ (k0_h7 : k0_cond7 d0 = 1#1), k0_dev6 < nD
  k0_dev7_lt : ∀ (i : grid0.Coords) (d0 : Dev nD), ∀ (k0_h1 : k0_cond1 i = 1#1), ∀ (k0_h8 : k0_cond8 d0 = 1#1), k0_dev7 < nD
  k0_dev8_lt : ∀ (i : grid0.Coords) (d0 : Dev nD), ∀ (k0_h1 : k0_cond1 i = 1#1), ∀ (k0_h9 : k0_cond9 d0 = 1#1), k0_dev8 < nD
  k0_off1_inb : ∀ (i : grid0.Coords) (d0 : Dev nD), ∀ (k0_h12 : k0_cond12 i = 1#1), ∀ (k0_h13 : k0_cond13 d0 = 1#1), ∀ a, (k0_off1 d0) a + S1.size a ≤ S8.size a
  k0_off2_inb : ∀ (i : grid0.Coords) (d0 : Dev nD), ∀ (k0_h12 : k0_cond12 i = 1#1), ∀ (k0_h13 : k0_cond13 d0 = 1#1), ∀ a, (k0_off2 d0) a + S1x512.size a ≤ S8x512.size a
  k0_dev9_lt : ∀ (i : grid0.Coords) (d0 : Dev nD), ∀ (k0_h12 : k0_cond12 i = 1#1), ∀ (k0_h13 : k0_cond13 d0 = 1#1), k0_dev9 < nD
  k0_off3_inb : ∀ (i : grid0.Coords) (d0 : Dev nD), ∀ (k0_h12 : k0_cond12 i = 1#1), ∀ (k0_h14 : k0_cond14 d0 = 1#1), ∀ a, (k0_off3 d0) a + S1.size a ≤ S8.size a
  k0_off4_inb : ∀ (i : grid0.Coords) (d0 : Dev nD), ∀ (k0_h12 : k0_cond12 i = 1#1), ∀ (k0_h14 : k0_cond14 d0 = 1#1), ∀ a, (k0_off4 d0) a + S1x512.size a ≤ S8x512.size a
  k0_dev10_lt : ∀ (i : grid0.Coords) (d0 : Dev nD), ∀ (k0_h12 : k0_cond12 i = 1#1), ∀ (k0_h14 : k0_cond14 d0 = 1#1), k0_dev10 < nD
  k0_off5_inb : ∀ (i : grid0.Coords) (d0 : Dev nD), ∀ (k0_h12 : k0_cond12 i = 1#1), ∀ (k0_h15 : k0_cond15 d0 = 1#1), ∀ a, (k0_off5 d0) a + S1.size a ≤ S8.size a
  k0_off6_inb : ∀ (i : grid0.Coords) (d0 : Dev nD), ∀ (k0_h12 : k0_cond12 i = 1#1), ∀ (k0_h15 : k0_cond15 d0 = 1#1), ∀ a, (k0_off6 d0) a + S1x512.size a ≤ S8x512.size a
  k0_dev11_lt : ∀ (i : grid0.Coords) (d0 : Dev nD), ∀ (k0_h12 : k0_cond12 i = 1#1), ∀ (k0_h15 : k0_cond15 d0 = 1#1), k0_dev11 < nD
  k0_off7_inb : ∀ (i : grid0.Coords) (d0 : Dev nD), ∀ (k0_h12 : k0_cond12 i = 1#1), ∀ (k0_h16 : k0_cond16 d0 = 1#1), ∀ a, (k0_off7 d0) a + S1.size a ≤ S8.size a
  k0_off8_inb : ∀ (i : grid0.Coords) (d0 : Dev nD), ∀ (k0_h12 : k0_cond12 i = 1#1), ∀ (k0_h16 : k0_cond16 d0 = 1#1), ∀ a, (k0_off8 d0) a + S1x512.size a ≤ S8x512.size a
  k0_dev12_lt : ∀ (i : grid0.Coords) (d0 : Dev nD), ∀ (k0_h12 : k0_cond12 i = 1#1), ∀ (k0_h16 : k0_cond16 d0 = 1#1), k0_dev12 < nD
  k0_off9_inb : ∀ (i : grid0.Coords) (d0 : Dev nD), ∀ (k0_h12 : k0_cond12 i = 1#1), ∀ (k0_h17 : k0_cond17 d0 = 1#1), ∀ a, (k0_off9 d0) a + S1.size a ≤ S8.size a
  k0_off10_inb : ∀ (i : grid0.Coords) (d0 : Dev nD), ∀ (k0_h12 : k0_cond12 i = 1#1), ∀ (k0_h17 : k0_cond17 d0 = 1#1), ∀ a, (k0_off10 d0) a + S1x512.size a ≤ S8x512.size a
  k0_dev13_lt : ∀ (i : grid0.Coords) (d0 : Dev nD), ∀ (k0_h12 : k0_cond12 i = 1#1), ∀ (k0_h17 : k0_cond17 d0 = 1#1), k0_dev13 < nD
  k0_off11_inb : ∀ (i : grid0.Coords) (d0 : Dev nD), ∀ (k0_h12 : k0_cond12 i = 1#1), ∀ (k0_h18 : k0_cond18 d0 = 1#1), ∀ a, (k0_off11 d0) a + S1.size a ≤ S8.size a
  k0_off12_inb : ∀ (i : grid0.Coords) (d0 : Dev nD), ∀ (k0_h12 : k0_cond12 i = 1#1), ∀ (k0_h18 : k0_cond18 d0 = 1#1), ∀ a, (k0_off12 d0) a + S1x512.size a ≤ S8x512.size a
  k0_dev14_lt : ∀ (i : grid0.Coords) (d0 : Dev nD), ∀ (k0_h12 : k0_cond12 i = 1#1), ∀ (k0_h18 : k0_cond18 d0 = 1#1), k0_dev14 < nD
  k0_off13_inb : ∀ (i : grid0.Coords) (d0 : Dev nD), ∀ (k0_h12 : k0_cond12 i = 1#1), ∀ (k0_h19 : k0_cond19 d0 = 1#1), ∀ a, (k0_off13 d0) a + S1.size a ≤ S8.size a
  k0_off14_inb : ∀ (i : grid0.Coords) (d0 : Dev nD), ∀ (k0_h12 : k0_cond12 i = 1#1), ∀ (k0_h19 : k0_cond19 d0 = 1#1), ∀ a, (k0_off14 d0) a + S1x512.size a ≤ S8x512.size a
  k0_dev15_lt : ∀ (i : grid0.Coords) (d0 : Dev nD), ∀ (k0_h12 : k0_cond12 i = 1#1), ∀ (k0_h19 : k0_cond19 d0 = 1#1), k0_dev15 < nD
  k0_off15_inb : ∀ (i : grid0.Coords) (d0 : Dev nD), ∀ (k0_h12 : k0_cond12 i = 1#1), ∀ (k0_h20 : k0_cond20 d0 = 1#1), ∀ a, (k0_off15 d0) a + S1.size a ≤ S8.size a
  k0_off16_inb : ∀ (i : grid0.Coords) (d0 : Dev nD), ∀ (k0_h12 : k0_cond12 i = 1#1), ∀ (k0_h20 : k0_cond20 d0 = 1#1), ∀ a, (k0_off16 d0) a + S1x512.size a ≤ S8x512.size a
  k0_dev16_lt : ∀ (i : grid0.Coords) (d0 : Dev nD), ∀ (k0_h12 : k0_cond12 i = 1#1), ∀ (k0_h20 : k0_cond20 d0 = 1#1), k0_dev16 < nD
  k0_off17_inb : ∀ (i : grid0.Coords) (d0 : Dev nD), ∀ (k0_h12 : k0_cond12 i = 1#1), ∀ (k0_h21 : k0_cond21 d0 = 1#1), ∀ a, (k0_off17 d0) a + S1.size a ≤ S8.size a
  k0_off18_inb : ∀ (i : grid0.Coords) (d0 : Dev nD), ∀ (k0_h12 : k0_cond12 i = 1#1), ∀ (k0_h21 : k0_cond21 d0 = 1#1), ∀ a, (k0_off18 d0) a + S1x512.size a ≤ S8x512.size a
  k0_dev17_lt : ∀ (i : grid0.Coords) (d0 : Dev nD), ∀ (k0_h12 : k0_cond12 i = 1#1), ∀ (k0_h21 : k0_cond21 d0 = 1#1), k0_dev17 < nD
  k0_off19_inb : ∀ (i : grid0.Coords) (d0 : Dev nD), ∀ (k0_h12 : k0_cond12 i = 1#1), ∀ (k0_h22 : k0_cond22 d0 = 1#1), ∀ a, (k0_off19 d0) a + S1.size a ≤ S8.size a
  k0_off20_inb : ∀ (i : grid0.Coords) (d0 : Dev nD), ∀ (k0_h12 : k0_cond12 i = 1#1), ∀ (k0_h22 : k0_cond22 d0 = 1#1), ∀ a, (k0_off20 d0) a + S1x512.size a ≤ S8x512.size a
  k0_dev18_lt : ∀ (i : grid0.Coords) (d0 : Dev nD), ∀ (k0_h12 : k0_cond12 i = 1#1), ∀ (k0_h22 : k0_cond22 d0 = 1#1), k0_dev18 < nD
  k0_off21_inb : ∀ (i : grid0.Coords) (d0 : Dev nD), ∀ (k0_h12 : k0_cond12 i = 1#1), ∀ (k0_h23 : k0_cond23 d0 = 1#1), ∀ a, (k0_off21 d0) a + S1.size a ≤ S8.size a
  k0_off22_inb : ∀ (i : grid0.Coords) (d0 : Dev nD), ∀ (k0_h12 : k0_cond12 i = 1#1), ∀ (k0_h23 : k0_cond23 d0 = 1#1), ∀ a, (k0_off22 d0) a + S1x512.size a ≤ S8x512.size a
  k0_dev19_lt : ∀ (i : grid0.Coords) (d0 : Dev nD), ∀ (k0_h12 : k0_cond12 i = 1#1), ∀ (k0_h23 : k0_cond23 d0 = 1#1), k0_dev19 < nD
  k0_off23_inb : ∀ (i : grid0.Coords) (d0 : Dev nD), ∀ (k0_h12 : k0_cond12 i = 1#1), ∀ (k0_h24 : k0_cond24 d0 = 1#1), ∀ a, (k0_off23 d0) a + S1.size a ≤ S8.size a
  k0_off24_inb : ∀ (i : grid0.Coords) (d0 : Dev nD), ∀ (k0_h12 : k0_cond12 i = 1#1), ∀ (k0_h24 : k0_cond24 d0 = 1#1), ∀ a, (k0_off24 d0) a + S1x512.size a ≤ S8x512.size a
  k0_dev20_lt : ∀ (i : grid0.Coords) (d0 : Dev nD), ∀ (k0_h12 : k0_cond12 i = 1#1), ∀ (k0_h24 : k0_cond24 d0 = 1#1), k0_dev20 < nD
  k0_off25_inb : ∀ (i : grid0.Coords) (d0 : Dev nD), ∀ (k0_h12 : k0_cond12 i = 1#1), ∀ (k0_h25 : k0_cond25 d0 = 1#1), ∀ a, (k0_off25 d0) a + S1.size a ≤ S8.size a
  k0_off26_inb : ∀ (i : grid0.Coords) (d0 : Dev nD), ∀ (k0_h12 : k0_cond12 i = 1#1), ∀ (k0_h25 : k0_cond25 d0 = 1#1), ∀ a, (k0_off26 d0) a + S1x512.size a ≤ S8x512.size a
  k0_dev21_lt : ∀ (i : grid0.Coords) (d0 : Dev nD), ∀ (k0_h12 : k0_cond12 i = 1#1), ∀ (k0_h25 : k0_cond25 d0 = 1#1), k0_dev21 < nD
  k0_off27_inb : ∀ (i : grid0.Coords) (d0 : Dev nD), ∀ (k0_h12 : k0_cond12 i = 1#1), ∀ (k0_h26 : k0_cond26 d0 = 1#1), ∀ a, (k0_off27 d0) a + S1.size a ≤ S8.size a
  k0_off28_inb : ∀ (i : grid0.Coords) (d0 : Dev nD), ∀ (k0_h12 : k0_cond12 i = 1#1), ∀ (k0_h26 : k0_cond26 d0 = 1#1), ∀ a, (k0_off28 d0) a + S1x512.size a ≤ S8x512.size a
  k0_dev22_lt : ∀ (i : grid0.Coords) (d0 : Dev nD), ∀ (k0_h12 : k0_cond12 i = 1#1), ∀ (k0_h26 : k0_cond26 d0 = 1#1), k0_dev22 < nD
  k0_off29_inb : ∀ (i : grid0.Coords) (d0 : Dev nD), ∀ (k0_h12 : k0_cond12 i = 1#1), ∀ (k0_h27 : k0_cond27 d0 = 1#1), ∀ a, (k0_off29 d0) a + S1.size a ≤ S8.size a
  k0_off30_inb : ∀ (i : grid0.Coords) (d0 : Dev nD), ∀ (k0_h12 : k0_cond12 i = 1#1), ∀ (k0_h27 : k0_cond27 d0 = 1#1), ∀ a, (k0_off30 d0) a + S1x512.size a ≤ S8x512.size a
  k0_dev23_lt : ∀ (i : grid0.Coords) (d0 : Dev nD), ∀ (k0_h12 : k0_cond12 i = 1#1), ∀ (k0_h27 : k0_cond27 d0 = 1#1), k0_dev23 < nD
  k0_off31_inb : ∀ (i : grid0.Coords) (d0 : Dev nD), ∀ (k0_h12 : k0_cond12 i = 1#1), ∀ (k0_h28 : k0_cond28 d0 = 1#1), ∀ a, (k0_off31 d0) a + S1.size a ≤ S8.size a
  k0_off32_inb : ∀ (i : grid0.Coords) (d0 : Dev nD), ∀ (k0_h12 : k0_cond12 i = 1#1), ∀ (k0_h28 : k0_cond28 d0 = 1#1), ∀ a, (k0_off32 d0) a + S1x512.size a ≤ S8x512.size a
  k0_dev24_lt : ∀ (i : grid0.Coords) (d0 : Dev nD), ∀ (k0_h12 : k0_cond12 i = 1#1), ∀ (k0_h28 : k0_cond28 d0 = 1#1), k0_dev24 < nD
  k0_off33_inb : ∀ (i : grid0.Coords) (d0 : Dev nD), ∀ (k0_h12 : k0_cond12 i = 1#1), ∀ (k0_h29 : k0_cond29 d0 = 1#1), ∀ a, (k0_off33 d0) a + S1.size a ≤ S8.size a
  k0_off34_inb : ∀ (i : grid0.Coords) (d0 : Dev nD), ∀ (k0_h12 : k0_cond12 i = 1#1), ∀ (k0_h29 : k0_cond29 d0 = 1#1), ∀ a, (k0_off34 d0) a + S1x512.size a ≤ S8x512.size a
  k0_dev25_lt : ∀ (i : grid0.Coords) (d0 : Dev nD), ∀ (k0_h12 : k0_cond12 i = 1#1), ∀ (k0_h29 : k0_cond29 d0 = 1#1), k0_dev25 < nD
  k0_off35_inb : ∀ (i : grid0.Coords) (d0 : Dev nD), ∀ (k0_h12 : k0_cond12 i = 1#1), ∀ (k0_h30 : k0_cond30 d0 = 1#1), ∀ a, (k0_off35 d0) a + S1.size a ≤ S8.size a
  k0_off36_inb : ∀ (i : grid0.Coords) (d0 : Dev nD), ∀ (k0_h12 : k0_cond12 i = 1#1), ∀ (k0_h30 : k0_cond30 d0 = 1#1), ∀ a, (k0_off36 d0) a + S1x512.size a ≤ S8x512.size a
  k0_dev26_lt : ∀ (i : grid0.Coords) (d0 : Dev nD), ∀ (k0_h12 : k0_cond12 i = 1#1), ∀ (k0_h30 : k0_cond30 d0 = 1#1), k0_dev26 < nD
  k0_off37_inb : ∀ (i : grid0.Coords) (d0 : Dev nD), ∀ (k0_h12 : k0_cond12 i = 1#1), ∀ (k0_h31 : k0_cond31 d0 = 1#1), ∀ a, (k0_off37 d0) a + S1.size a ≤ S8.size a
  k0_off38_inb : ∀ (i : grid0.Coords) (d0 : Dev nD), ∀ (k0_h12 : k0_cond12 i = 1#1), ∀ (k0_h31 : k0_cond31 d0 = 1#1), ∀ a, (k0_off38 d0) a + S1x512.size a ≤ S8x512.size a
  k0_dev27_lt : ∀ (i : grid0.Coords) (d0 : Dev nD), ∀ (k0_h12 : k0_cond12 i = 1#1), ∀ (k0_h31 : k0_cond31 d0 = 1#1), k0_dev27 < nD
  k0_off39_inb : ∀ (i : grid0.Coords) (d0 : Dev nD), ∀ (k0_h12 : k0_cond12 i = 1#1), ∀ (k0_h32 : k0_cond32 d0 = 1#1), ∀ a, (k0_off39 d0) a + S1.size a ≤ S8.size a
  k0_off40_inb : ∀ (i : grid0.Coords) (d0 : Dev nD), ∀ (k0_h12 : k0_cond12 i = 1#1), ∀ (k0_h32 : k0_cond32 d0 = 1#1), ∀ a, (k0_off40 d0) a + S1x512.size a ≤ S8x512.size a
  k0_dev28_lt : ∀ (i : grid0.Coords) (d0 : Dev nD), ∀ (k0_h12 : k0_cond12 i = 1#1), ∀ (k0_h32 : k0_cond32 d0 = 1#1), k0_dev28 < nD
  k0_off41_inb : ∀ (i : grid0.Coords) (d0 : Dev nD), ∀ (k0_h12 : k0_cond12 i = 1#1), ∀ (k0_h33 : k0_cond33 d0 = 1#1), ∀ a, (k0_off41 d0) a + S1.size a ≤ S8.size a
  k0_off42_inb : ∀ (i : grid0.Coords) (d0 : Dev nD), ∀ (k0_h12 : k0_cond12 i = 1#1), ∀ (k0_h33 : k0_cond33 d0 = 1#1), ∀ a, (k0_off42 d0) a + S1x512.size a ≤ S8x512.size a
  k0_dev29_lt : ∀ (i : grid0.Coords) (d0 : Dev nD), ∀ (k0_h12 : k0_cond12 i = 1#1), ∀ (k0_h33 : k0_cond33 d0 = 1#1), k0_dev29 < nD
  k0_off43_inb : ∀ (i : grid0.Coords) (d0 : Dev nD), ∀ (k0_h12 : k0_cond12 i = 1#1), ∀ (k0_h34 : k0_cond34 d0 = 1#1), ∀ a, (k0_off43 d0) a + S1.size a ≤ S8.size a
  k0_off44_inb : ∀ (i : grid0.Coords) (d0 : Dev nD), ∀ (k0_h12 : k0_cond12 i = 1#1), ∀ (k0_h34 : k0_cond34 d0 = 1#1), ∀ a, (k0_off44 d0) a + S1x512.size a ≤ S8x512.size a
  k0_dev30_lt : ∀ (i : grid0.Coords) (d0 : Dev nD), ∀ (k0_h12 : k0_cond12 i = 1#1), ∀ (k0_h34 : k0_cond34 d0 = 1#1), k0_dev30 < nD
  k0_off45_inb : ∀ (i : grid0.Coords) (d0 : Dev nD), ∀ (k0_h12 : k0_cond12 i = 1#1), ∀ (k0_h35 : k0_cond35 d0 = 1#1), ∀ a, (k0_off45 d0) a + S1.size a ≤ S8.size a
  k0_off46_inb : ∀ (i : grid0.Coords) (d0 : Dev nD), ∀ (k0_h12 : k0_cond12 i = 1#1), ∀ (k0_h35 : k0_cond35 d0 = 1#1), ∀ a, (k0_off46 d0) a + S1x512.size a ≤ S8x512.size a
  k0_dev31_lt : ∀ (i : grid0.Coords) (d0 : Dev nD), ∀ (k0_h12 : k0_cond12 i = 1#1), ∀ (k0_h35 : k0_cond35 d0 = 1#1), k0_dev31 < nD
  k0_off47_inb : ∀ (i : grid0.Coords) (d0 : Dev nD), ∀ (k0_h12 : k0_cond12 i = 1#1), ∀ (k0_h36 : k0_cond36 d0 = 1#1), ∀ a, (k0_off47 d0) a + S1.size a ≤ S8.size a
  k0_off48_inb : ∀ (i : grid0.Coords) (d0 : Dev nD), ∀ (k0_h12 : k0_cond12 i = 1#1), ∀ (k0_h36 : k0_cond36 d0 = 1#1), ∀ a, (k0_off48 d0) a + S1x512.size a ≤ S8x512.size a
  k0_dev32_lt : ∀ (i : grid0.Coords) (d0 : Dev nD), ∀ (k0_h12 : k0_cond12 i = 1#1), ∀ (k0_h36 : k0_cond36 d0 = 1#1), k0_dev32 < nD
  k0_off49_inb : ∀ (i : grid0.Coords) (d0 : Dev nD), ∀ (k0_h12 : k0_cond12 i = 1#1), ∀ (k0_h37 : k0_cond37 d0 = 1#1), ∀ a, (k0_off49 d0) a + S1.size a ≤ S8.size a
  k0_off50_inb : ∀ (i : grid0.Coords) (d0 : Dev nD), ∀ (k0_h12 : k0_cond12 i = 1#1), ∀ (k0_h37 : k0_cond37 d0 = 1#1), ∀ a, (k0_off50 d0) a + S1x512.size a ≤ S8x512.size a
  k0_dev33_lt : ∀ (i : grid0.Coords) (d0 : Dev nD), ∀ (k0_h12 : k0_cond12 i = 1#1), ∀ (k0_h37 : k0_cond37 d0 = 1#1), k0_dev33 < nD
  k0_off51_inb : ∀ (i : grid0.Coords) (d0 : Dev nD), ∀ (k0_h12 : k0_cond12 i = 1#1), ∀ (k0_h38 : k0_cond38 d0 = 1#1), ∀ a, (k0_off51 d0) a + S1.size a ≤ S8.size a
  k0_off52_inb : ∀ (i : grid0.Coords) (d0 : Dev nD), ∀ (k0_h12 : k0_cond12 i = 1#1), ∀ (k0_h38 : k0_cond38 d0 = 1#1), ∀ a, (k0_off52 d0) a + S1x512.size a ≤ S8x512.size a
  k0_dev34_lt : ∀ (i : grid0.Coords) (d0 : Dev nD), ∀ (k0_h12 : k0_cond12 i = 1#1), ∀ (k0_h38 : k0_cond38 d0 = 1#1), k0_dev34 < nD
  k0_off53_inb : ∀ (i : grid0.Coords) (d0 : Dev nD), ∀ (k0_h12 : k0_cond12 i = 1#1), ∀ (k0_h39 : k0_cond39 d0 = 1#1), ∀ a, (k0_off53 d0) a + S1.size a ≤ S8.size a
  k0_off54_inb : ∀ (i : grid0.Coords) (d0 : Dev nD), ∀ (k0_h12 : k0_cond12 i = 1#1), ∀ (k0_h39 : k0_cond39 d0 = 1#1), ∀ a, (k0_off54 d0) a + S1x512.size a ≤ S8x512.size a
  k0_dev35_lt : ∀ (i : grid0.Coords) (d0 : Dev nD), ∀ (k0_h12 : k0_cond12 i = 1#1), ∀ (k0_h39 : k0_cond39 d0 = 1#1), k0_dev35 < nD
  k0_off55_inb : ∀ (i : grid0.Coords) (d0 : Dev nD), ∀ (k0_h12 : k0_cond12 i = 1#1), ∀ (k0_h40 : k0_cond40 d0 = 1#1), ∀ a, (k0_off55 d0) a + S1.size a ≤ S8.size a
  k0_off56_inb : ∀ (i : grid0.Coords) (d0 : Dev nD), ∀ (k0_h12 : k0_cond12 i = 1#1), ∀ (k0_h40 : k0_cond40 d0 = 1#1), ∀ a, (k0_off56 d0) a + S1x512.size a ≤ S8x512.size a
  k0_dev36_lt : ∀ (i : grid0.Coords) (d0 : Dev nD), ∀ (k0_h12 : k0_cond12 i = 1#1), ∀ (k0_h40 : k0_cond40 d0 = 1#1), k0_dev36 < nD
  k0_off57_inb : ∀ (i : grid0.Coords) (d0 : Dev nD), ∀ (k0_h12 : k0_cond12 i = 1#1), ∀ (k0_h41 : k0_cond41 d0 = 1#1), ∀ a, (k0_off57 d0) a + S1.size a ≤ S8.size a
  k0_off58_inb : ∀ (i : grid0.Coords) (d0 : Dev nD), ∀ (k0_h12 : k0_cond12 i = 1#1), ∀ (k0_h41 : k0_cond41 d0 = 1#1), ∀ a, (k0_off58 d0) a + S1x512.size a ≤ S8x512.size a
  k0_dev37_lt : ∀ (i : grid0.Coords) (d0 : Dev nD), ∀ (k0_h12 : k0_cond12 i = 1#1), ∀ (k0_h41 : k0_cond41 d0 = 1#1), k0_dev37 < nD
  k0_off59_inb : ∀ (i : grid0.Coords) (d0 : Dev nD), ∀ (k0_h12 : k0_cond12 i = 1#1), ∀ (k0_h42 : k0_cond42 d0 = 1#1), ∀ a, (k0_off59 d0) a + S1.size a ≤ S8.size a
  k0_off60_inb : ∀ (i : grid0.Coords) (d0 : Dev nD), ∀ (k0_h12 : k0_cond12 i = 1#1), ∀ (k0_h42 : k0_cond42 d0 = 1#1), ∀ a, (k0_off60 d0) a + S1x512.size a ≤ S8x512.size a
  k0_dev38_lt : ∀ (i : grid0.Coords) (d0 : Dev nD), ∀ (k0_h12 : k0_cond12 i = 1#1), ∀ (k0_h42 : k0_cond42 d0 = 1#1), k0_dev38 < nD
  k0_off61_inb : ∀ (i : grid0.Coords) (d0 : Dev nD), ∀ (k0_h12 : k0_cond12 i = 1#1), ∀ (k0_h43 : k0_cond43 d0 = 1#1), ∀ a, (k0_off61 d0) a + S1.size a ≤ S8.size a
  k0_off62_inb : ∀ (i : grid0.Coords) (d0 : Dev nD), ∀ (k0_h12 : k0_cond12 i = 1#1), ∀ (k0_h43 : k0_cond43 d0 = 1#1), ∀ a, (k0_off62 d0) a + S1x512.size a ≤ S8x512.size a
  k0_dev39_lt : ∀ (i : grid0.Coords) (d0 : Dev nD), ∀ (k0_h12 : k0_cond12 i = 1#1), ∀ (k0_h43 : k0_cond43 d0 = 1#1), k0_dev39 < nD
  k0_off63_inb : ∀ (i : grid0.Coords) (d0 : Dev nD), ∀ (k0_h12 : k0_cond12 i = 1#1), ∀ (k0_h44 : k0_cond44 d0 = 1#1), ∀ a, (k0_off63 d0) a + S1.size a ≤ S8.size a
  k0_off64_inb : ∀ (i : grid0.Coords) (d0 : Dev nD), ∀ (k0_h12 : k0_cond12 i = 1#1), ∀ (k0_h44 : k0_cond44 d0 = 1#1), ∀ a, (k0_off64 d0) a + S1x512.size a ≤ S8x512.size a
  k0_dev40_lt : ∀ (i : grid0.Coords) (d0 : Dev nD), ∀ (k0_h12 : k0_cond12 i = 1#1), ∀ (k0_h44 : k0_cond44 d0 = 1#1), k0_dev40 < nD
  k0_off65_inb : ∀ (i : grid0.Coords) (d0 : Dev nD), ∀ (k0_h12 : k0_cond12 i = 1#1), ∀ (k0_h45 : k0_cond45 d0 = 1#1), ∀ a, (k0_off65 d0) a + S1.size a ≤ S8.size a
  k0_off66_inb : ∀ (i : grid0.Coords) (d0 : Dev nD), ∀ (k0_h12 : k0_cond12 i = 1#1), ∀ (k0_h45 : k0_cond45 d0 = 1#1), ∀ a, (k0_off66 d0) a + S1x512.size a ≤ S8x512.size a
  k0_dev41_lt : ∀ (i : grid0.Coords) (d0 : Dev nD), ∀ (k0_h12 : k0_cond12 i = 1#1), ∀ (k0_h45 : k0_cond45 d0 = 1#1), k0_dev41 < nD
  k0_off67_inb : ∀ (i : grid0.Coords) (d0 : Dev nD), ∀ (k0_h12 : k0_cond12 i = 1#1), ∀ (k0_h46 : k0_cond46 d0 = 1#1), ∀ a, (k0_off67 d0) a + S1.size a ≤ S8.size a
  k0_off68_inb : ∀ (i : grid0.Coords) (d0 : Dev nD), ∀ (k0_h12 : k0_cond12 i = 1#1), ∀ (k0_h46 : k0_cond46 d0 = 1#1), ∀ a, (k0_off68 d0) a + S1x512.size a ≤ S8x512.size a
  k0_dev42_lt : ∀ (i : grid0.Coords) (d0 : Dev nD), ∀ (k0_h12 : k0_cond12 i = 1#1), ∀ (k0_h46 : k0_cond46 d0 = 1#1), k0_dev42 < nD
  k0_off69_inb : ∀ (i : grid0.Coords) (d0 : Dev nD), ∀ (k0_h12 : k0_cond12 i = 1#1), ∀ (k0_h47 : k0_cond47 d0 = 1#1), ∀ a, (k0_off69 d0) a + S1.size a ≤ S8.size a
  k0_off70_inb : ∀ (i : grid0.Coords) (d0 : Dev nD), ∀ (k0_h12 : k0_cond12 i = 1#1), ∀ (k0_h47 : k0_cond47 d0 = 1#1), ∀ a, (k0_off70 d0) a + S1x512.size a ≤ S8x512.size a
  k0_dev43_lt : ∀ (i : grid0.Coords) (d0 : Dev nD), ∀ (k0_h12 : k0_cond12 i = 1#1), ∀ (k0_h47 : k0_cond47 d0 = 1#1), k0_dev43 < nD
  k0_off71_inb : ∀ (i : grid0.Coords) (d0 : Dev nD), ∀ (k0_h12 : k0_cond12 i = 1#1), ∀ (k0_h48 : k0_cond48 d0 = 1#1), ∀ a, (k0_off71 d0) a + S1.size a ≤ S8.size a
  k0_off72_inb : ∀ (i : grid0.Coords) (d0 : Dev nD), ∀ (k0_h12 : k0_cond12 i = 1#1), ∀ (k0_h48 : k0_cond48 d0 = 1#1), ∀ a, (k0_off72 d0) a + S1x512.size a ≤ S8x512.size a
  k0_dev44_lt : ∀ (i : grid0.Coords) (d0 : Dev nD), ∀ (k0_h12 : k0_cond12 i = 1#1), ∀ (k0_h48 : k0_cond48 d0 = 1#1), k0_dev44 < nD
  k0_off73_inb : ∀ (i : grid0.Coords) (d0 : Dev nD), ∀ (k0_h12 : k0_cond12 i = 1#1), ∀ (k0_h49 : k0_cond49 d0 = 1#1), ∀ a, (k0_off73 d0) a + S1.size a ≤ S8.size a
  k0_off74_inb : ∀ (i : grid0.Coords) (d0 : Dev nD), ∀ (k0_h12 : k0_cond12 i = 1#1), ∀ (k0_h49 : k0_cond49 d0 = 1#1), ∀ a, (k0_off74 d0) a + S1x512.size a ≤ S8x512.size a
  k0_dev45_lt : ∀ (i : grid0.Coords) (d0 : Dev nD), ∀ (k0_h12 : k0_cond12 i = 1#1), ∀ (k0_h49 : k0_cond49 d0 = 1#1), k0_dev45 < nD
  k0_off75_inb : ∀ (i : grid0.Coords) (d0 : Dev nD), ∀ (k0_h12 : k0_cond12 i = 1#1), ∀ (k0_h50 : k0_cond50 d0 = 1#1), ∀ a, (k0_off75 d0) a + S1.size a ≤ S8.size a
  k0_off76_inb : ∀ (i : grid0.Coords) (d0 : Dev nD), ∀ (k0_h12 : k0_cond12 i = 1#1), ∀ (k0_h50 : k0_cond50 d0 = 1#1), ∀ a, (k0_off76 d0) a + S1x512.size a ≤ S8x512.size a
  k0_dev46_lt : ∀ (i : grid0.Coords) (d0 : Dev nD), ∀ (k0_h12 : k0_cond12 i = 1#1), ∀ (k0_h50 : k0_cond50 d0 = 1#1), k0_dev46 < nD
  k0_off77_inb : ∀ (i : grid0.Coords) (d0 : Dev nD), ∀ (k0_h12 : k0_cond12 i = 1#1), ∀ (k0_h51 : k0_cond51 d0 = 1#1), ∀ a, (k0_off77 d0) a + S1.size a ≤ S8.size a
  k0_off78_inb : ∀ (i : grid0.Coords) (d0 : Dev nD), ∀ (k0_h12 : k0_cond12 i = 1#1), ∀ (k0_h51 : k0_cond51 d0 = 1#1), ∀ a, (k0_off78 d0) a + S1x512.size a ≤ S8x512.size a
  k0_dev47_lt : ∀ (i : grid0.Coords) (d0 : Dev nD), ∀ (k0_h12 : k0_cond12 i = 1#1), ∀ (k0_h51 : k0_cond51 d0 = 1#1), k0_dev47 < nD
  k0_off79_inb : ∀ (i : grid0.Coords) (d0 : Dev nD), ∀ (k0_h12 : k0_cond12 i = 1#1), ∀ (k0_h52 : k0_cond52 d0 = 1#1), ∀ a, (k0_off79 d0) a + S1.size a ≤ S8.size a
  k0_off80_inb : ∀ (i : grid0.Coords) (d0 : Dev nD), ∀ (k0_h12 : k0_cond12 i = 1#1), ∀ (k0_h52 : k0_cond52 d0 = 1#1), ∀ a, (k0_off80 d0) a + S1x512.size a ≤ S8x512.size a
  k0_dev48_lt : ∀ (i : grid0.Coords) (d0 : Dev nD), ∀ (k0_h12 : k0_cond12 i = 1#1), ∀ (k0_h52 : k0_cond52 d0 = 1#1), k0_dev48 < nD
  k0_off81_inb : ∀ (i : grid0.Coords) (d0 : Dev nD), ∀ (k0_h12 : k0_cond12 i = 1#1), ∀ (k0_h53 : k0_cond53 d0 = 1#1), ∀ a, (k0_off81 d0) a + S1.size a ≤ S8.size a
  k0_off82_inb : ∀ (i : grid0.Coords) (d0 : Dev nD), ∀ (k0_h12 : k0_cond12 i = 1#1), ∀ (k0_h53 : k0_cond53 d0 = 1#1), ∀ a, (k0_off82 d0) a + S1x512.size a ≤ S8x512.size a
  k0_dev49_lt : ∀ (i : grid0.Coords) (d0 : Dev nD), ∀ (k0_h12 : k0_cond12 i = 1#1), ∀ (k0_h53 : k0_cond53 d0 = 1#1), k0_dev49 < nD
  k0_off83_inb : ∀ (i : grid0.Coords) (d0 : Dev nD), ∀ (k0_h12 : k0_cond12 i = 1#1), ∀ (k0_h54 : k0_cond54 d0 = 1#1), ∀ a, (k0_off83 d0) a + S1.size a ≤ S8.size a
  k0_off84_inb : ∀ (i : grid0.Coords) (d0 : Dev nD), ∀ (k0_h12 : k0_cond12 i = 1#1), ∀ (k0_h54 : k0_cond54 d0 = 1#1), ∀ a, (k0_off84 d0) a + S1x512.size a ≤ S8x512.size a
  k0_dev50_lt : ∀ (i : grid0.Coords) (d0 : Dev nD), ∀ (k0_h12 : k0_cond12 i = 1#1), ∀ (k0_h54 : k0_cond54 d0 = 1#1), k0_dev50 < nD
  k0_off85_inb : ∀ (i : grid0.Coords) (d0 : Dev nD), ∀ (k0_h12 : k0_cond12 i = 1#1), ∀ (k0_h55 : k0_cond55 d0 = 1#1), ∀ a, (k0_off85 d0) a + S1.size a ≤ S8.size a
  k0_off86_inb : ∀ (i : grid0.Coords) (d0 : Dev nD), ∀ (k0_h12 : k0_cond12 i = 1#1), ∀ (k0_h55 : k0_cond55 d0 = 1#1), ∀ a, (k0_off86 d0) a + S1x512.size a ≤ S8x512.size a
  k0_dev51_lt : ∀ (i : grid0.Coords) (d0 : Dev nD), ∀ (k0_h12 : k0_cond12 i = 1#1), ∀ (k0_h55 : k0_cond55 d0 = 1#1), k0_dev51 < nD
  k0_off87_inb : ∀ (i : grid0.Coords) (d0 : Dev nD), ∀ (k0_h12 : k0_cond12 i = 1#1), ∀ (k0_h56 : k0_cond56 d0 = 1#1), ∀ a, (k0_off87 d0) a + S1.size a ≤ S8.size a
  k0_off88_inb : ∀ (i : grid0.Coords) (d0 : Dev nD), ∀ (k0_h12 : k0_cond12 i = 1#1), ∀ (k0_h56 : k0_cond56 d0 = 1#1), ∀ a, (k0_off88 d0) a + S1x512.size a ≤ S8x512.size a
  k0_dev52_lt : ∀ (i : grid0.Coords) (d0 : Dev nD), ∀ (k0_h12 : k0_cond12 i = 1#1), ∀ (k0_h56 : k0_cond56 d0 = 1#1), k0_dev52 < nD
  k0_off89_inb : ∀ (i : grid0.Coords) (d0 : Dev nD), ∀ (k0_h12 : k0_cond12 i = 1#1), ∀ (k0_h57 : k0_cond57 d0 = 1#1), ∀ a, (k0_off89 d0) a + S1.size a ≤ S8.size a
  k0_off90_inb : ∀ (i : grid0.Coords) (d0 : Dev nD), ∀ (k0_h12 : k0_cond12 i = 1#1), ∀ (k0_h57 : k0_cond57 d0 = 1#1), ∀ a, (k0_off90 d0) a + S1x512.size a ≤ S8x512.size a
  k0_dev53_lt : ∀ (i : grid0.Coords) (d0 : Dev nD), ∀ (k0_h12 : k0_cond12 i = 1#1), ∀ (k0_h57 : k0_cond57 d0 = 1#1), k0_dev53 < nD
  k0_off91_inb : ∀ (i : grid0.Coords) (d0 : Dev nD), ∀ (k0_h12 : k0_cond12 i = 1#1), ∀ (k0_h58 : k0_cond58 d0 = 1#1), ∀ a, (k0_off91 d0) a + S1.size a ≤ S8.size a
  k0_off92_inb : ∀ (i : grid0.Coords) (d0 : Dev nD), ∀ (k0_h12 : k0_cond12 i = 1#1), ∀ (k0_h58 : k0_cond58 d0 = 1#1), ∀ a, (k0_off92 d0) a + S1x512.size a ≤ S8x512.size a
  k0_dev54_lt : ∀ (i : grid0.Coords) (d0 : Dev nD), ∀ (k0_h12 : k0_cond12 i = 1#1), ∀ (k0_h58 : k0_cond58 d0 = 1#1), k0_dev54 < nD
  k0_off93_inb : ∀ (i : grid0.Coords) (d0 : Dev nD), ∀ (k0_h12 : k0_cond12 i = 1#1), ∀ (k0_h59 : k0_cond59 d0 = 1#1), ∀ a, (k0_off93 d0) a + S1.size a ≤ S8.size a
  k0_off94_inb : ∀ (i : grid0.Coords) (d0 : Dev nD), ∀ (k0_h12 : k0_cond12 i = 1#1), ∀ (k0_h59 : k0_cond59 d0 = 1#1), ∀ a, (k0_off94 d0) a + S1x512.size a ≤ S8x512.size a
  k0_dev55_lt : ∀ (i : grid0.Coords) (d0 : Dev nD), ∀ (k0_h12 : k0_cond12 i = 1#1), ∀ (k0_h59 : k0_cond59 d0 = 1#1), k0_dev55 < nD
  k0_off95_inb : ∀ (i : grid0.Coords) (d0 : Dev nD), ∀ (k0_h12 : k0_cond12 i = 1#1), ∀ (k0_h60 : k0_cond60 d0 = 1#1), ∀ a, (k0_off95 d0) a + S1.size a ≤ S8.size a
  k0_off96_inb : ∀ (i : grid0.Coords) (d0 : Dev nD), ∀ (k0_h12 : k0_cond12 i = 1#1), ∀ (k0_h60 : k0_cond60 d0 = 1#1), ∀ a, (k0_off96 d0) a + S1x512.size a ≤ S8x512.size a
  k0_dev56_lt : ∀ (i : grid0.Coords) (d0 : Dev nD), ∀ (k0_h12 : k0_cond12 i = 1#1), ∀ (k0_h60 : k0_cond60 d0 = 1#1), k0_dev56 < nD
  k0_off97_inb : ∀ (i : grid0.Coords) (d0 : Dev nD), ∀ (k0_h12 : k0_cond12 i = 1#1), ∀ (k0_h61 : k0_cond61 d0 = 1#1), ∀ a, (k0_off97 d0) a + S1.size a ≤ S8.size a
  k0_off98_inb : ∀ (i : grid0.Coords) (d0 : Dev nD), ∀ (k0_h12 : k0_cond12 i = 1#1), ∀ (k0_h61 : k0_cond61 d0 = 1#1), ∀ a, (k0_off98 d0) a + S1x512.size a ≤ S8x512.size a
  k0_dev57_lt : ∀ (i : grid0.Coords) (d0 : Dev nD), ∀ (k0_h12 : k0_cond12 i = 1#1), ∀ (k0_h61 : k0_cond61 d0 = 1#1), k0_dev57 < nD
  k0_off99_inb : ∀ (i : grid0.Coords) (d0 : Dev nD), ∀ (k0_h12 : k0_cond12 i = 1#1), ∀ (k0_h62 : k0_cond62 d0 = 1#1), ∀ a, (k0_off99 d0) a + S1.size a ≤ S8.size a
  k0_off100_inb : ∀ (i : grid0.Coords) (d0 : Dev nD), ∀ (k0_h12 : k0_cond12 i = 1#1), ∀ (k0_h62 : k0_cond62 d0 = 1#1), ∀ a, (k0_off100 d0) a + S1x512.size a ≤ S8x512.size a
  k0_dev58_lt : ∀ (i : grid0.Coords) (d0 : Dev nD), ∀ (k0_h12 : k0_cond12 i = 1#1), ∀ (k0_h62 : k0_cond62 d0 = 1#1), k0_dev58 < nD
  k0_off101_inb : ∀ (i : grid0.Coords) (d0 : Dev nD), ∀ (k0_h12 : k0_cond12 i = 1#1), ∀ (k0_h63 : k0_cond63 d0 = 1#1), ∀ a, (k0_off101 d0) a + S1.size a ≤ S8.size a
  k0_off102_inb : ∀ (i : grid0.Coords) (d0 : Dev nD), ∀ (k0_h12 : k0_cond12 i = 1#1), ∀ (k0_h63 : k0_cond63 d0 = 1#1), ∀ a, (k0_off102 d0) a + S1x512.size a ≤ S8x512.size a
  k0_dev59_lt : ∀ (i : grid0.Coords) (d0 : Dev nD), ∀ (k0_h12 : k0_cond12 i = 1#1), ∀ (k0_h63 : k0_cond63 d0 = 1#1), k0_dev59 < nD
  k0_off103_inb : ∀ (i : grid0.Coords) (d0 : Dev nD), ∀ (k0_h12 : k0_cond12 i = 1#1), ∀ (k0_h64 : k0_cond64 d0 = 1#1), ∀ a, (k0_off103 d0) a + S1.size a ≤ S8.size a
  k0_off104_inb : ∀ (i : grid0.Coords) (d0 : Dev nD), ∀ (k0_h12 : k0_cond12 i = 1#1), ∀ (k0_h64 : k0_cond64 d0 = 1#1), ∀ a, (k0_off104 d0) a + S1x512.size a ≤ S8x512.size a
  k0_dev60_lt : ∀ (i : grid0.Coords) (d0 : Dev nD), ∀ (k0_h12 : k0_cond12 i = 1#1), ∀ (k0_h64 : k0_cond64 d0 = 1#1), k0_dev60 < nD
  k0_off105_inb : ∀ (i : grid0.Coords) (d0 : Dev nD), ∀ (k0_h12 : k0_cond12 i = 1#1), ∀ (k0_h65 : k0_cond65 d0 = 1#1), ∀ a, (k0_off105 d0) a + S1.size a ≤ S8.size a
  k0_off106_inb : ∀ (i : grid0.Coords) (d0 : Dev nD), ∀ (k0_h12 : k0_cond12 i = 1#1), ∀ (k0_h65 : k0_cond65 d0 = 1#1), ∀ a, (k0_off106 d0) a + S1x512.size a ≤ S8x512.size a
  k0_dev61_lt : ∀ (i : grid0.Coords) (d0 : Dev nD), ∀ (k0_h12 : k0_cond12 i = 1#1), ∀ (k0_h65 : k0_cond65 d0 = 1#1), k0_dev61 < nD
  k0_off107_inb : ∀ (i : grid0.Coords) (d0 : Dev nD), ∀ (k0_h12 : k0_cond12 i = 1#1), ∀ (k0_h66 : k0_cond66 d0 = 1#1), ∀ a, (k0_off107 d0) a + S1.size a ≤ S8.size a
  k0_off108_inb : ∀ (i : grid0.Coords) (d0 : Dev nD), ∀ (k0_h12 : k0_cond12 i = 1#1), ∀ (k0_h66 : k0_cond66 d0 = 1#1), ∀ a, (k0_off108 d0) a + S1x512.size a ≤ S8x512.size a
  k0_dev62_lt : ∀ (i : grid0.Coords) (d0 : Dev nD), ∀ (k0_h12 : k0_cond12 i = 1#1), ∀ (k0_h66 : k0_cond66 d0 = 1#1), k0_dev62 < nD
  k0_off109_inb : ∀ (i : grid0.Coords) (d0 : Dev nD), ∀ (k0_h12 : k0_cond12 i = 1#1), ∀ (k0_h67 : k0_cond67 d0 = 1#1), ∀ a, (k0_off109 d0) a + S1.size a ≤ S8.size a
  k0_off110_inb : ∀ (i : grid0.Coords) (d0 : Dev nD), ∀ (k0_h12 : k0_cond12 i = 1#1), ∀ (k0_h67 : k0_cond67 d0 = 1#1), ∀ a, (k0_off110 d0) a + S1x512.size a ≤ S8x512.size a
  k0_dev63_lt : ∀ (i : grid0.Coords) (d0 : Dev nD), ∀ (k0_h12 : k0_cond12 i = 1#1), ∀ (k0_h67 : k0_cond67 d0 = 1#1), k0_dev63 < nD
  k0_off111_inb : ∀ (i : grid0.Coords) (d0 : Dev nD), ∀ (k0_h12 : k0_cond12 i = 1#1), ∀ (k0_h68 : k0_cond68 d0 = 1#1), ∀ a, (k0_off111 d0) a + S1.size a ≤ S8.size a
  k0_off112_inb : ∀ (i : grid0.Coords) (d0 : Dev nD), ∀ (k0_h12 : k0_cond12 i = 1#1), ∀ (k0_h68 : k0_cond68 d0 = 1#1), ∀ a, (k0_off112 d0) a + S1x512.size a ≤ S8x512.size a
  k0_dev64_lt : ∀ (i : grid0.Coords) (d0 : Dev nD), ∀ (k0_h12 : k0_cond12 i = 1#1), ∀ (k0_h68 : k0_cond68 d0 = 1#1), k0_dev64 < nD
  k0_off113_inb : ∀ (i : grid0.Coords) (d0 : Dev nD), ∀ (k0_h12 : k0_cond12 i = 1#1), ∀ a, (k0_off113 d0) a + S1x512.size a ≤ S8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)

variable [Facts₀]

abbrev cc0_scratch2 : DmaSems sig S8 := SemArray.consecutive 3 S8 hcc0_scratch2
abbrev cc0_scratch3 : DmaSems sig S8 := SemArray.consecutive 11 S8 hcc0_scratch3

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond12 i == 1#1) | ⟨_ + 2, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Spec.lean ====
import proofs.«901074_g7700000000001075_dist_sum_ax0_shard0_i_m1024_n512_v7x_i8_f32_1_alg».proof.Proof.Gen.KernelIdeal.Skeleton
import proofs.«901074_g7700000000001075_dist_sum_ax0_shard0_i_m1024_n512_v7x_i8_f32_1_alg».proof.Proof.Gen.KernelIdeal.Frame
import Idealize.ShloMosaic.Lib.ValueIdx

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

def xblk (c : Dev nD) (t : Fin cfg0.N) : Vec F S256x512 .f32 := Gen.iblk m c 0 t

def accN (c : Dev nD) : (t : ℕ) → t < 4 → Vec F S1x512 .f32
  | 0, _ => k0_pay2 (xblk m c t0_0)
  | t + 1, h => k0_pay3 (xblk m c ⟨t + 1, by rw [show cfg0.N = 4 from N_0]; exact h⟩) (accN c t (by omega))

def devSum (c : Dev nD) : Vec F S1x512 .f32 := accN m c 3 (by decide)

def table : Vec F S8x512 .f32 := fun idx => devSum m ⟨(idx 0).val, (idx 0).isLt⟩ (ValueIdx.ix2 (0 : Fin 1) (idx 1))

def total : Vec F S1x512 .f32 := k0_pay5 (table m)

def totalBuf (c : Dev nD) : Buf (Elt F) ((c.tc : Thread nD τ).loc main_v1) := total m

def RunPost (r : PUnit × MemSt nD τ sig (Elt F)) : Prop := ∀ c : Dev nD,
  r.2.mem ((c.tc : Thread nD τ).loc main_v1) = totalBuf m c
    ∧ r.2.mem ((c.tc : Thread nD τ).loc main_arg0) = m ((c.tc : Thread nD τ).loc main_arg0)

end Cert.KernelIdeal.Hand

end
-- ==== Proof.Sched.lean ====
import proofs.«901074_g7700000000001075_dist_sum_ax0_shard0_i_m1024_n512_v7x_i8_f32_1_alg».proof.Proof.Spec
import proofs.«901074_g7700000000001075_dist_sum_ax0_shard0_i_m1024_n512_v7x_i8_f32_1_alg».proof.Proof.Gen.KernelIdeal.Launch
import proofs.«901074_g7700000000001075_dist_sum_ax0_shard0_i_m1024_n512_v7x_i8_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev locM : Memref sig .tc .vmem S1x512 .f32 := Memref.whole cc0_scratch0
abbrev comM : Memref sig .tc .vmem S8x512 .f32 := Memref.whole cc0_scratch1

theorem row_inb (q : Dev nD) : ∀ a, (![q.val, 0] : Fin 2 → Nat) a + S1x512.size a ≤ S8x512.size a := by revert q; decide
theorem sem_inb (q : Dev nD) : ∀ a, (![q.val] : Fin 1 → Nat) a + S1.size a ≤ S8.size a := by revert q; decide

abbrev rowM (q : Dev nD) : Memref sig .tc .vmem S1x512 .f32 :=
  comM.slice (Rect.unit (s := S8x512) ![q.val, 0] S1x512.size (row_inb q)) (fun _ => rfl)

abbrev barS : Sem sig := (SemArray.scalar (sig.barrier 0 rfl) : Sems sig S_).sem
abbrev sendSem (q : Dev nD) : DmaSem sig := ((cc0_scratch2.slice (Rect.unit (s := S8) ![q.val] S1.size (sem_inb q))).squeeze S_ squeezes_S1_S_).sem
abbrev recvSem (q : Dev nD) : DmaSem sig := ((cc0_scratch3.slice (Rect.unit (s := S8) ![q.val] S1.size (sem_inb q))).squeeze S_ squeezes_S1_S_).sem

theorem sendSem_val (q : Dev nD) : (sendSem q).val = 3 + q.val := by revert q; decide
theorem recvSem_val (q : Dev nD) : (recvSem q).val = 11 + q.val := by revert q; decide

abbrev barCell (c : Dev nD) : GSem nD τ sig := ((c : Thread nD τ), .reg barS)
abbrev sendCell (c q : Dev nD) : GSem nD τ sig := ((c : Thread nD τ), .dma (sendSem q))
abbrev recvCell (c q : Dev nD) : GSem nD τ sig := ((c : Thread nD τ), .dma (recvSem q))

abbrev N : ℕ := (locM : Memref sig .tc .vmem S1x512 .f32).view.dmaCredit
theorem N_pos : 0 < N := View.dmaCredit_pos _ (by decide)

def sumBuf (c : Dev nD) : Buf (Elt F) ((locM : Memref sig .tc .vmem S1x512 .f32).view.loc (c : Thread nD τ)) := devSum m c

def tableBuf (c : Dev nD) : Buf (Elt F) ((comM : Memref sig .tc .vmem S8x512 .f32).view.loc (c : Thread nD τ)) := table m

def locPts (c : Dev nD) (q : PosShare TreeShare) (f : Buf (Elt F) ((locM : Memref sig .tc .vmem S1x512 .f32).view.loc (c : Thread nD τ))) : sProp 𝕄 :=
  (locM : Memref sig .tc .vmem S1x512 .f32).view.loc (c : Thread nD τ) ↦[(locM : Memref sig .tc .vmem S1x512 .f32).view.set]{q} f

def rowPts (c r : Dev nD) (f : Buf (Elt F) ((rowM r).view.loc (c : Thread nD τ))) : sProp 𝕄 :=
  (rowM r).view.loc (c : Thread nD τ) ↦[(rowM r).view.set]{fullShare} f

def comPts (c : Dev nD) (f : Buf (Elt F) ((comM : Memref sig .tc .vmem S8x512 .f32).view.loc (c : Thread nD τ))) : sProp 𝕄 :=
  (comM : Memref sig .tc .vmem S8x512 .f32).view.loc (c : Thread nD τ) ↦[(comM : Memref sig .tc .vmem S8x512 .f32).view.set]{fullShare} f

omit [FloatOps F] in
instance locPts_storable (c : Dev nD) (q f) : BI.Storable (upEmb : UEmb _ 𝕄) (locPts (F := F) c q f) := by unfold locPts; infer_instance
omit [FloatOps F] in
instance rowPts_storable (c r : Dev nD) (f) : BI.Storable (upEmb : UEmb _ 𝕄) (rowPts (F := F) c r f) := by unfold rowPts; infer_instance

abbrev tokShare (p : Dev nD) : PosShare TreeShare := Transfers.shareTok fullShare 8 p

abbrev restShare : PosShare TreeShare := Transfers.shareDrop fullShare 8

def barPay (c p : Dev nD) : sProp 𝕄 := iprop((∃ f, rowPts p c f) ∗ reached ER (recvCell p c) 0)
def recvPay (c q : Dev nD) : sProp 𝕄 := rowPts c q (tableBuf m c)
def sendPay (c q : Dev nD) : sProp 𝕄 := locPts c (tokShare q) (sumBuf m c)

def semPeer (s : DmaSem sig) : Dev nD := ⟨(s.val + 5) % 8, Nat.mod_lt _ (by decide)⟩

theorem semPeer_send (q : Dev nD) : semPeer (sendSem q) = q := by revert q; decide
theorem semPeer_recv (q : Dev nD) : semPeer (recvSem q) = q := by revert q; decide

def rd : Rounds.Schedule (GSem nD τ sig) (Dev nD) 𝕄 where
  duties g r :=
    if r = 0 ∧ g.1.2 = .tc then
      match g.2 with
      | .reg _ => Finset.univ.erase g.1.1
      | .dma s => if 3 ≤ s.val ∧ semPeer s ≠ g.1.1 then {semPeer s} else ∅
    else ∅
  unitless _ := False
  amount g _ _ := match g.2 with | .reg _ => 1 | .dma _ => N
  payload g _ d := match g.2 with
    | .reg _ => barPay g.1.1 d
    | .dma s => if s.val < 11 then sendPay m g.1.1 (semPeer s) else recvPay m g.1.1 (semPeer s)
  amount_pos g _ _ _ := by
    cases g.2 with
    | reg _ => exact Nat.one_pos
    | dma _ => exact N_pos

instance rd_payload_storable (g : GSem nD τ sig) (r : ℕ) (d : Dev nD) :
    BI.Storable (upEmb : UEmb _ 𝕄) ((rd (F := F) m).payload g r d) := by
  show BI.Storable upEmb (match g.2 with
    | .reg _ => barPay g.1.1 d
    | .dma s => if s.val < 11 then sendPay m g.1.1 (semPeer s) else recvPay m g.1.1 (semPeer s))
  unfold barPay recvPay sendPay
  (repeat' split) <;> infer_instance

section Tables
variable (c q : Dev nD)

theorem duties_bar : (rd (F := F) m).duties (barCell c) 0 = Finset.univ.erase c := by
  dsimp only [rd]; rw [if_pos ⟨rfl, rfl⟩]
theorem duties_send (h : q ≠ c) : (rd (F := F) m).duties (sendCell c q) 0 = {q} := by
  dsimp only [rd]; rw [if_pos ⟨rfl, rfl⟩, semPeer_send, if_pos ⟨by rw [sendSem_val]; omega, h⟩]
theorem duties_recv (h : q ≠ c) : (rd (F := F) m).duties (recvCell c q) 0 = {q} := by
  dsimp only [rd]; rw [if_pos ⟨rfl, rfl⟩, semPeer_recv, if_pos ⟨by rw [recvSem_val]; omega, h⟩]
theorem duties_send_self (r : ℕ) : (rd (F := F) m).duties (sendCell c c) r = ∅ := by
  dsimp only [rd]; split
  · rw [semPeer_send, if_neg (fun h => h.2 rfl)]
  · rfl
theorem duties_recv_self (r : ℕ) : (rd (F := F) m).duties (recvCell c c) r = ∅ := by
  dsimp only [rd]; split
  · rw [semPeer_recv, if_neg (fun h => h.2 rfl)]
  · rfl
theorem duties_later (g : GSem nD τ sig) : ∀ r, 1 ≤ r → (rd (F := F) m).duties g r = ∅ :=
  fun r hr => by dsimp only [rd]; rw [if_neg fun h => by omega]

theorem amount_bar (d : Dev nD) : (rd (F := F) m).amount (barCell c) 0 d = 1 := rfl
theorem amount_send (d : Dev nD) : (rd (F := F) m).amount (sendCell c q) 0 d = N := rfl
theorem amount_recv (d : Dev nD) : (rd (F := F) m).amount (recvCell c q) 0 d = N := rfl

theorem expect_bar : (rd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (h : q ≠ c) : (rd (F := F) m).expect (sendCell c q) 0 = N := by
  unfold Schedule.expect Schedule.amountOf; rw [duties_send m c q h, Finset.sum_singleton, amount_send]
theorem expect_recv (h : q ≠ c) : (rd (F := F) m).expect (recvCell c q) 0 = N := by
  unfold Schedule.expect Schedule.amountOf; rw [duties_recv m c q h, Finset.sum_singleton, amount_recv]

theorem payload_bar (d : Dev nD) : (rd (F := F) m).payload (barCell c) 0 d = barPay c d := rfl
theorem payload_send (d : Dev nD) : (rd (F := F) m).payload (sendCell c q) 0 d = sendPay m c q := by
  dsimp only [rd]; rw [if_pos (by rw [sendSem_val]; have : q.val < 8 := q.isLt; omega), semPeer_send]
theorem payload_recv (d : Dev nD) : (rd (F := F) m).payload (recvCell c q) 0 d = recvPay m c q := by
  dsimp only [rd]; rw [if_neg (by rw [recvSem_val]; omega), semPeer_recv]

end Tables

def sigO (S : Finset (Dev nD)) : CellTallies nD τ sig Unit := ∑ p ∈ S, tallyAt (barCell p) () 1

def sendO (c : Dev nD) (S : Finset (Dev nD)) : CellTallies nD τ sig Unit := ∑ p ∈ S, tallyAt (recvCell p c) () N
def O₀ (c : Dev nD) : CellTallies nD τ sig Unit := sendO c (Finset.univ.erase c) + sigO (Finset.univ.erase c)

def L (g : GSem nD τ sig) : Finset Unit := if g.1.2 = .tc then {()} else ∅

def lv (g : GSem nD τ sig) (_ : Unit) : ℕ := match g.2 with | .reg _ => 1 | .dma s => if 11 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

inductive CK where
  | bar
  | send (q : Dev nD)
  | recv (q : Dev nD)
  deriving DecidableEq, Fintype

def csem : CK → SemLoc sig
  | .bar => .reg barS
  | .send q => .dma (sendSem q)
  | .recv q => .dma (recvSem q)
abbrev kcell (ck : Dev nD × CK) : GSem nD τ sig := ((ck.1 : Thread nD τ), csem ck.2)

abbrev osem : Fin 2 × Dev nD → SemLoc sig := fun x => match x.1 with | 0 => .dma (sendSem x.2) | 1 => .dma (recvSem x.2)

def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records (F := F) m K) := by unfold records; infer_instance

def positions (c : Dev nD) : sProp 𝕄 := bigSep Finset.univ fun k : CK => atPos ER (kcell (c, k)) 0 ∅ 0

def sigToks (c : Dev nD) : sProp 𝕄 := bigSep (Finset.univ.erase c) fun p => dutyTok ER (barCell p) 0 c

def sendToks (c : Dev nD) : sProp 𝕄 := bigSep (Finset.univ.erase c) fun p => iprop(dutyTok ER (recvCell p c) 0 c ∗ dutyTok ER (sendCell c p) 0 p)

def creds (c : Dev nD) : sProp 𝕄 :=
  iprop(cred (tallyAt (barCell c) () 7) ∗ bigSep (Finset.univ.erase c) fun q => cred (tallyAt (recvCell c q) () N))

def ghost (K : Dev nD × CK → ℕ) (c : Dev nD) : sProp 𝕄 := iprop(records m K ∗ positions c ∗ sigToks c ∗ sendToks c)
def start (c : Dev nD) : sProp 𝕄 := iprop((∃ K, ghost m K c) ∗ creds c ∗ levAts L lv)

def Φ₀ (c : Dev nD) : sProp 𝕄 := iprop(start m c ∗ (∃ f, locPts c fullShare f) ∗ (∃ f, comPts c f))

def Φmid (c : Dev nD) (a : Vec F S1x512 .f32) : sProp 𝕄 :=
  iprop((∃ K, records m K) ∗ positions c ∗ sendToks c ∗ creds c ∗ levAts L lv ∗ locPts c fullShare a ∗ (∃ f, rowPts c c f))

def Φ₄ (c : Dev nD) : sProp 𝕄 :=
  iprop(locPts c fullShare (sumBuf m c) ∗ comPts c (tableBuf m c) ∗ Pipeline.ownSems0 osem c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => total m
  Φ t := match t with
    | ⟨0, _⟩ => Φ₀ m c
    | ⟨1, _⟩ => Φmid m c (accN m c 0 (by decide))
    | ⟨2, _⟩ => Φmid m c (accN m c 1 (by decide))
    | ⟨3, _⟩ => Φmid m c (accN m c 2 (by decide))
    | ⟨_ + 4, _⟩ => Φ₄ m c
  q _ := fullShare
  owed t := match t with
    | ⟨0, _⟩ => O₀ c
    | ⟨1, _⟩ => sendO c (Finset.univ.erase c)
    | ⟨2, _⟩ => sendO c (Finset.univ.erase c)
    | ⟨3, _⟩ => sendO c (Finset.univ.erase c)
    | ⟨_ + 4, _⟩ => 0

abbrev 𝒱₀ : Variants := Variants.none

end Cert.KernelIdeal.Hand

end
-- ==== Proof.BodyLocal.lean ====
import proofs.«901074_g7700000000001075_dist_sum_ax0_shard0_i_m1024_n512_v7x_i8_f32_1_alg».proof.Proof.Sched
import Idealize.ShloMosaic.Lib.Pipeline.Value

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem hz2 : (![0, 0] : Fin 2 → Nat) = fun _ => 0 := funext fun a => by fin_cases a <;> rfl

abbrev bodyOn (i : grid0.Coords) (arg1 : Memref sig .tc .vmem S256x512 .f32) (harg1 : arg1.IsWhole) (arg2 : Memref sig .tc .vmem S1x512 .f32) (harg2 : arg2.IsWhole) :
    Prog (TpuEff nD τ sig (Elt F) Λ₀ .tc) PUnit :=
  cc0_body i arg1 harg1 arg2 harg2 (Memref.whole cc0_scratch0) (Memref.isWhole_whole _) (Memref.whole cc0_scratch1) (Memref.isWhole_whole _) cc0_scratch2 cc0_scratch3

set_option maxHeartbeats 1000000 in
theorem run_mid (c : Dev nD) (t : Fin cfg0.N) (ht : t = t0_1 ∨ t = t0_2)
    (arg1 : Memref sig .tc .vmem S256x512 .f32) (harg1 : arg1.IsWhole) (arg2 : Memref sig .tc .vmem S1x512 .f32) (harg2 : arg2.IsWhole)
    (x : Vec F S256x512 .f32) (a : Vec F S1x512 .f32) (o : Vec F S1x512 .f32) (Kt : PUnit → sProp 𝕄) :
    iprop(owns (c : Thread nD τ) arg1 fullShare x ∗ owns (c : Thread nD τ) arg2 fullShare o ∗ locPts c fullShare a
        ∗ (iprop(owns (c : Thread nD τ) arg1 fullShare x ∗ owns (c : Thread nD τ) arg2 fullShare o ∗ locPts c fullShare (k0_pay3 x a)) -∗ Kt ⟨⟩))
      ⊢ wp frame (wpE (defs₀ (F := F)) 𝒱₀ c none) Set.univ (bodyOn (F := F) (grid0.coords t) arg1 harg1 arg2 harg2) Kt := by
  unfold bodyOn
  simp only [cc0_body_eq_skeleton]; unfold cc0_body_skel
  unfold owns locPts
  iintro ⟨⟨%f0, %hf0, H0⟩, ⟨%f1, %hf1, H1⟩, Hl, Hk⟩
  obtain rfl := harg1.eq_unread hf0; obtain rfl := harg2.eq_unread hf1
  rcases ht with rfl | rfl
  all_goals
    sl_exec (disch := first | decide)
    sl_step
    iapply Hk
    isplitl [H0]
    · iexists _; isplitr; · (ipureintro; exact harg1.read_unread _)
      iexact H0
    isplitl [H1]
    · iexists _; isplitr; · (ipureintro; exact harg2.read_unread _)
      iexact H1
    sl_unfold_words
    rw [View.writes_singleton]
    simp only [View.readAt_eq_ld, harg1.read_unread, View.ld_unit_zero (S := S256x512) hz2, View.ld_unit_zero (S := S1x512) hz2]
    rw [View.read_whole]
    rw [show View.write (Elt F) ((View.whole cc0_scratch0).slice (Rect.unit ![0, 0] ![1, 512] inb_S1x512_S1x512_0_0)) a (k0_pay3 x a) Finset.univ = k0_pay3 x a from
      Memref.write_access_unit_zero_univ (Elt F) cc0_scratch0 hz2 _ a _]
    iexact Hl

omit [FloatOps F] in
theorem sep7 (A1 A2 A3 A4 A5 A6 A7 : sProp 𝕄) :
    BI.sep A1 (BI.sep A2 (BI.sep A3 (BI.sep A4 (BI.sep A5 (BI.sep A6 A7))))) ⊢ iprop(A1 ∗ A2 ∗ A3 ∗ A4 ∗ A5 ∗ A6 ∗ A7) := .rfl

def Run0 (c : Dev nD) : Prop :=
  ∀ (arg1 : Memref sig .tc .vmem S256x512 .f32) (harg1 : arg1.IsWhole) (arg2 : Memref sig .tc .vmem S1x512 .f32) (harg2 : arg2.IsWhole)
    (x : Vec F S256x512 .f32) (o : Vec F S1x512 .f32) (Kt : PUnit → sProp 𝕄),
    iprop(Φ₀ m c ∗ (dats m ρ 0 c).owesAt () t0_0.castSucc ∗ owns (c : Thread nD τ) arg1 fullShare x ∗ owns (c : Thread nD τ) arg2 fullShare o
        ∗ (iprop(Φmid m c (k0_pay2 x) ∗ (dats m ρ 0 c).owesAt () t0_0.succ ∗ owns (c : Thread nD τ) arg1 fullShare x ∗ owns (c : Thread nD τ) arg2 fullShare o) -∗ Kt ⟨⟩))
      ⊢ wp frame (wpE (defs₀ (F := F)) 𝒱₀ c none) Set.univ (bodyOn (F := F) (grid0.coords t0_0) arg1 harg1 arg2 harg2) Kt

def Run3 (c : Dev nD) : Prop :=
  ∀ (arg1 : Memref sig .tc .vmem S256x512 .f32) (harg1 : arg1.IsWhole) (arg2 : Memref sig .tc .vmem S1x512 .f32) (harg2 : arg2.IsWhole)
    (x : Vec F S256x512 .f32) (o : Vec F S1x512 .f32) (a : Vec F S1x512 .f32) (ha : k0_pay3 x a = devSum m c) (Kt : PUnit → sProp 𝕄),
    iprop(Φmid m c a ∗ (dats m ρ 0 c).owesAt () t0_3.castSucc ∗ owns (c : Thread nD τ) arg1 fullShare x ∗ owns (c : Thread nD τ) arg2 fullShare o
        ∗ (iprop(Φ₄ m c ∗ (dats m ρ 0 c).owesAt () t0_3.succ ∗ owns (c : Thread nD τ) arg1 fullShare x ∗ owns (c : Thread nD τ) arg2 fullShare (total m)) -∗ Kt ⟨⟩))
      ⊢ wp frame (wpE (defs₀ (F := F)) 𝒱₀ c none) Set.univ (bodyOn (F := F) (grid0.coords t0_3) arg1 harg1 arg2 harg2) Kt

end Cert.KernelIdeal.Hand
end
-- ==== Proof.Body.lean ====
import proofs.«901074_g7700000000001075_dist_sum_ax0_shard0_i_m1024_n512_v7x_i8_f32_1_alg».proof.Proof.BodyLocal

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem before0 (c : Dev nD) (t : Fin cfg0.N) (d) : (dats m ρ 0 c).before 0 t d = xblk m c t :=
  ((dats m ρ 0 c).before_in_eq_fetched 0 rfl (fun _ => rfl) (fun _ _ _ => rfl)
      (fun t => by show xblk m c t = _; unfold xblk Dat.blockOf iblk; rfl) t d).trans
    (by unfold Dat.fetched Dat.blockOf xblk iblk; rfl)

theorem body_obligation_of (c : Dev nD) (h0 : Run0 m ρ c) (h3 : Run3 m ρ c) :
    BodyObligation (dats (F := F) m ρ 0 c) (defs₀ (F := F)) 𝒱₀ () Set.univ := fun t => by
  rcases fin_N0 t with rfl | rfl | rfl | rfl
  · rw [bigSep_W0, bigSep_W0]
    show iprop(Φ₀ m c ∗ (dats m ρ 0 c).owesAt () t0_0.castSucc
        ∗ (∃ d, owns (c : Thread nD τ) (st0_0 t0_0) fullShare ((dats m ρ 0 c).before 0 t0_0 d))
        ∗ (∃ d, owns (c : Thread nD τ) (st0_1 t0_0) fullShare ((dats m ρ 0 c).before 1 t0_0 d)))
      ⊢ wp frame (wpE (defs₀ (F := F)) 𝒱₀ c none) Set.univ
          (bodyOn (F := F) (grid0.coords t0_0) (st0_0 t0_0) (hstage0_0 ((cfg0.slots t0_0 0).cast nbuf0_0)) (st0_1 t0_0) (hstage0_1 ((cfg0.slots t0_0 1).cast nbuf0_1)))
          (fun _ => iprop(Φmid m c (k0_pay2 (xblk m c t0_0)) ∗ (dats m ρ 0 c).owesAt () t0_0.succ
            ∗ owns (c : Thread nD τ) (st0_0 t0_0) fullShare (xblk m c t0_0)
            ∗ (∃ d, owns (c : Thread nD τ) (st0_1 t0_0) fullShare ((dats m ρ 0 c).before 1 t0_0 d))))
    iintro ⟨HΦ, Ho, ⟨%d0, H0⟩, ⟨%d1, H1⟩⟩
    rw [before0]
    iapply (h0 _ _ _ _ (xblk m c t0_0) _ _)
    isplitl [HΦ]; · iexact HΦ
    isplitl [Ho]; · iexact Ho
    isplitl [H0]; · iexact H0
    isplitl [H1]; · iexact H1
    iintro ⟨HΦ, Ho, H0, H1⟩
    isplitl [HΦ]; · iexact HΦ
    isplitl [Ho]; · iexact Ho
    isplitl [H0]; · iexact H0
    iexists d1; iexact H1
  · rw [bigSep_W0, bigSep_W0]
    show iprop(Φmid m c (accN m c 0 (by decide)) ∗ (dats m ρ 0 c).owesAt () t0_1.castSucc
        ∗ (∃ d, owns (c : Thread nD τ) (st0_0 t0_1) fullShare ((dats m ρ 0 c).before 0 t0_1 d))
        ∗ (∃ d, owns (c : Thread nD τ) (st0_1 t0_1) fullShare ((dats m ρ 0 c).before 1 t0_1 d)))
      ⊢ wp frame (wpE (defs₀ (F := F)) 𝒱₀ c none) Set.univ
          (bodyOn (F := F) (grid0.coords t0_1) (st0_0 t0_1) (hstage0_0 ((cfg0.slots t0_1 0).cast nbuf0_0)) (st0_1 t0_1) (hstage0_1 ((cfg0.slots t0_1 1).cast nbuf0_1)))
          (fun _ => iprop(Φmid m c (k0_pay3 (xblk m c t0_1) (accN m c 0 (by decide))) ∗ (dats m ρ 0 c).owesAt () t0_1.succ
            ∗ owns (c : Thread nD τ) (st0_0 t0_1) fullShare (xblk m c t0_1)
            ∗ (∃ d, owns (c : Thread nD τ) (st0_1 t0_1) fullShare ((dats m ρ 0 c).before 1 t0_1 d))))
    iintro ⟨HΦ, Ho, ⟨%d0, H0⟩, ⟨%d1, H1⟩⟩
    rw [before0]
    unfold Φmid
    icases HΦ with ⟨HK, Hpos, Htoks, Hcr, Hlev, Hl, Hrow⟩
    iapply (run_mid c t0_1 (.inl rfl) _ _ _ _ (xblk m c t0_1) _ _ _)
    isplitl [H0]; · iexact H0
    isplitl [H1]; · iexact H1
    isplitl [Hl]; · iexact Hl
    iintro ⟨H0, H1, Hl⟩
    isplitl [HK Hpos Htoks Hcr Hlev Hl Hrow]
    · isplitl [HK]; · iexact HK
      isplitl [Hpos]; · iexact Hpos
      isplitl [Htoks]; · iexact Htoks
      isplitl [Hcr]; · iexact Hcr
      isplitl [Hlev]; · iexact Hlev
      isplitl [Hl]; · iexact Hl
      iexact Hrow
    isplitl [Ho]; · iexact Ho
    isplitl [H0]; · iexact H0
    iexists d1; iexact H1
  · rw [bigSep_W0, bigSep_W0]
    show iprop(Φmid m c (accN m c 1 (by decide)) ∗ (dats m ρ 0 c).owesAt () t0_2.castSucc
        ∗ (∃ d, owns (c : Thread nD τ) (st0_0 t0_2) fullShare ((dats m ρ 0 c).before 0 t0_2 d))
        ∗ (∃ d, owns (c : Thread nD τ) (st0_1 t0_2) fullShare ((dats m ρ 0 c).before 1 t0_2 d)))
      ⊢ wp frame (wpE (defs₀ (F := F)) 𝒱₀ c none) Set.univ
          (bodyOn (F := F) (grid0.coords t0_2) (st0_0 t0_2) (hstage0_0 ((cfg0.slots t0_2 0).cast nbuf0_0)) (st0_1 t0_2) (hstage0_1 ((cfg0.slots t0_2 1).cast nbuf0_1)))
          (fun _ => iprop(Φmid m c (k0_pay3 (xblk m c t0_2) (accN m c 1 (by decide))) ∗ (dats m ρ 0 c).owesAt () t0_2.succ
            ∗ owns (c : Thread nD τ) (st0_0 t0_2) fullShare (xblk m c t0_2)
            ∗ (∃ d, owns (c : Thread nD τ) (st0_1 t0_2) fullShare ((dats m ρ 0 c).before 1 t0_2 d))))
    iintro ⟨HΦ, Ho, ⟨%d0, H0⟩, ⟨%d1, H1⟩⟩
    rw [before0]
    unfold Φmid
    icases HΦ with ⟨HK, Hpos, Htoks, Hcr, Hlev, Hl, Hrow⟩
    iapply (run_mid c t0_2 (.inr rfl) _ _ _ _ (xblk m c t0_2) _ _ _)
    isplitl [H0]; · iexact H0
    isplitl [H1]; · iexact H1
    isplitl [Hl]; · iexact Hl
    iintro ⟨H0, H1, Hl⟩
    isplitl [HK Hpos Htoks Hcr Hlev Hl Hrow]
    · isplitl [HK]; · iexact HK
      isplitl [Hpos]; · iexact Hpos
      isplitl [Htoks]; · iexact Htoks
      isplitl [Hcr]; · iexact Hcr
      isplitl [Hlev]; · iexact Hlev
      isplitl [Hl]; · iexact Hl
      iexact Hrow
    isplitl [Ho]; · iexact Ho
    isplitl [H0]; · iexact H0
    iexists d1; iexact H1
  · rw [bigSep_W0, bigSep_W0]
    show iprop(Φmid m c (accN m c 2 (by decide)) ∗ (dats m ρ 0 c).owesAt () t0_3.castSucc
        ∗ (∃ d, owns (c : Thread nD τ) (st0_0 t0_3) fullShare ((dats m ρ 0 c).before 0 t0_3 d))
        ∗ (∃ d, owns (c : Thread nD τ) (st0_1 t0_3) fullShare ((dats m ρ 0 c).before 1 t0_3 d)))
      ⊢ wp frame (wpE (defs₀ (F := F)) 𝒱₀ c none) Set.univ
          (bodyOn (F := F) (grid0.coords t0_3) (st0_0 t0_3) (hstage0_0 ((cfg0.slots t0_3 0).cast nbuf0_0)) (st0_1 t0_3) (hstage0_1 ((cfg0.slots t0_3 1).cast nbuf0_1)))
          (fun _ => iprop(Φ₄ m c ∗ (dats m ρ 0 c).owesAt () t0_3.succ
            ∗ owns (c : Thread nD τ) (st0_0 t0_3) fullShare (xblk m c t0_3)
            ∗ owns (c : Thread nD τ) (st0_1 t0_3) fullShare (total m)))
    iintro ⟨HΦ, Ho, ⟨%d0, H0⟩, ⟨%d1, H1⟩⟩
    rw [before0]
    iapply (h3 _ _ _ _ (xblk m c t0_3) _ (accN m c 2 (by decide)) rfl _)
    isplitl [HΦ]; · iexact HΦ
    isplitl [Ho]; · iexact Ho
    isplitl [H0]; · iexact H0
    isplitl [H1]; · iexact H1
    iintro ⟨HΦ, Ho, H0, H1⟩
    isplitl [HΦ]; · iexact HΦ
    isplitl [Ho]; · iexact Ho
    isplitl [H0]; · iexact H0
    iexact H1

end Cert.KernelIdeal.Hand
end
-- ==== Proof.Rows.lean ====
import proofs.«901074_g7700000000001075_dist_sum_ax0_shard0_i_m1024_n512_v7x_i8_f32_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem mem_row (r : Dev nD) (i : (comM : Memref sig .tc .vmem S8x512 .f32).view.ty.Idx) :
    i ∈ (rowM r).view.set ↔ ∀ a, (![r.val, 0] : Fin 2 → Nat) a ≤ i a ∧ (i a : Nat) < (![r.val, 0] : Fin 2 → Nat) a + S1x512.size a := by
  show i ∈ ((View.whole cc0_scratch1).slice (Rect.unit (s := S8x512) ![r.val, 0] S1x512.size (row_inb r))).set ↔ _
  rw [View.set_slice_whole, Rect.mem_set_unit]
  exact Iff.rfl

theorem rows_cover : (comM : Memref sig .tc .vmem S8x512 .f32).view.set = (Finset.univ : Finset (Dev nD)).biUnion fun r => (rowM r).view.set := by
  ext i
  show i ∈ (View.whole cc0_scratch1 : View sig .tc .vmem S8x512 .f32).set ↔ _
  rw [View.set_whole]
  refine ⟨fun _ => Finset.mem_biUnion.mpr ⟨⟨(i 0).val, (i 0).isLt⟩, Finset.mem_univ _, ?_⟩, fun _ => Finset.mem_univ _⟩
  rw [mem_row]
  intro a
  fin_cases a
  · exact ⟨Nat.le_refl _, Nat.lt_succ_self _⟩
  · exact ⟨Nat.zero_le _, (i 1).isLt⟩

theorem rows_disjoint (r r' : Dev nD) (h : r ≠ r') : Disjoint (rowM r).view.set (rowM r').view.set := by
  show Disjoint ((View.whole cc0_scratch1).slice (Rect.unit (s := S8x512) ![r.val, 0] S1x512.size (row_inb r))).set
    ((View.whole cc0_scratch1).slice (Rect.unit (s := S8x512) ![r'.val, 0] S1x512.size (row_inb r'))).set
  rw [View.set_slice_whole, View.set_slice_whole]
  refine Rect.unit_disjoint 0 ?_
  have hv : r.val ≠ r'.val := fun e => h (Fin.ext e)
  show r.val + 1 ≤ r'.val ∨ r'.val + 1 ≤ r.val
  omega

theorem com_rows (c : Dev nD) (f : Buf (Elt F) ((comM : Memref sig .tc .vmem S8x512 .f32).view.loc (c : Thread nD τ))) :
    (comPts c f : sProp 𝕄) = bigSep Finset.univ fun r : Dev nD => rowPts c r f := by
  unfold comPts rowPts
  rw [rows_cover]
  exact pointsTo_biUnion _ _ fun r _ r' _ h => rows_disjoint r r' h

end Cert.KernelIdeal.Hand
end
-- ==== Proof.Body0Lib.lean ====
import proofs.«901074_g7700000000001075_dist_sum_ax0_shard0_i_m1024_n512_v7x_i8_f32_1_alg».proof.Proof.Rows
import proofs.«901074_g7700000000001075_dist_sum_ax0_shard0_i_m1024_n512_v7x_i8_f32_1_alg».proof.Proof.BodyLocal

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem dev1_eq (h : k0_dev1 < nD) : (⟨k0_dev1, h⟩ : Dev nD) = 0 := Fin.ext k0_dev1_eq
theorem dev2_eq (h : k0_dev2 < nD) : (⟨k0_dev2, h⟩ : Dev nD) = 1 := Fin.ext k0_dev2_eq
theorem dev3_eq (h : k0_dev3 < nD) : (⟨k0_dev3, h⟩ : Dev nD) = 2 := Fin.ext k0_dev3_eq
theorem dev4_eq (h : k0_dev4 < nD) : (⟨k0_dev4, h⟩ : Dev nD) = 3 := Fin.ext k0_dev4_eq
theorem dev5_eq (h : k0_dev5 < nD) : (⟨k0_dev5, h⟩ : Dev nD) = 4 := Fin.ext k0_dev5_eq
theorem dev6_eq (h : k0_dev6 < nD) : (⟨k0_dev6, h⟩ : Dev nD) = 5 := Fin.ext k0_dev6_eq
theorem dev7_eq (h : k0_dev7 < nD) : (⟨k0_dev7, h⟩ : Dev nD) = 6 := Fin.ext k0_dev7_eq
theorem dev8_eq (h : k0_dev8 < nD) : (⟨k0_dev8, h⟩ : Dev nD) = 7 := Fin.ext k0_dev8_eq

theorem rec_bar (K : Dev nD × CK → ℕ) (p : Dev nD) : (records (F := F) m K : sProp 𝕄) ⊢ cellInv ER (rd m) (K (p, CK.bar)) (barCell p) := by
  unfold records
  exact sep_elim_left.trans (show _ ⊢ _ from BI.bigSep_elim (Φ := fun ck : Dev nD × CK => cellInv ER (rd m) (K ck) (kcell ck)) (Finset.mem_univ (p, CK.bar)))

theorem rec_bar_reached (K : Dev nD × CK → ℕ) (p : Dev nD) : (records (F := F) m K : sProp 𝕄) ⊢ reached ER (barCell p) 0 := by
  unfold records
  exact sep_elim_right.trans (show _ ⊢ _ from BI.bigSep_elim (Φ := fun ck : Dev nD × CK => reached ER (kcell ck) 0) (Finset.mem_univ (p, CK.bar)))

theorem rec_recv_reached (K : Dev nD × CK → ℕ) (c q : Dev nD) : (records (F := F) m K : sProp 𝕄) ⊢ reached ER (recvCell c q) 0 := by
  unfold records
  exact sep_elim_right.trans (show _ ⊢ _ from BI.bigSep_elim (Φ := fun ck : Dev nD × CK => reached ER (kcell ck) 0) (Finset.mem_univ (c, CK.recv q)))

end Cert.KernelIdeal.Hand
end
-- ==== Proof.Body0.lean ====
import proofs.«901074_g7700000000001075_dist_sum_ax0_shard0_i_m1024_n512_v7x_i8_f32_1_alg».proof.Proof.Body0Lib

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem payload_bar_f (c d : Dev nD) : (rd (F := F) m).payload (barCell c) 0 d = iprop((∃ f, rowPts d c f) ∗ reached ER (recvCell d c) 0) := rfl

attribute [local sl_rounds] duties_bar amount_bar payload_bar_f expect_bar
attribute [local irreducible] rowPts

theorem com_split (c : Dev nD) (f : Buf (Elt F) ((comM : Memref sig .tc .vmem S8x512 .f32).view.loc (c : Thread nD τ))) :
    (comPts c f : sProp 𝕄) = iprop(rowPts c c f ∗ bigSep (Finset.univ.erase c) fun r => rowPts c r f) := by
  rw [com_rows, BI.bigSep_univ_split c]; rfl

theorem erase_d0 : Finset.univ.erase (0 : Dev nD) = {1, 2, 3, 4, 5, 6, 7} := by decide
theorem erase_d1 : Finset.univ.erase (1 : Dev nD) = {0, 2, 3, 4, 5, 6, 7} := by decide
theorem erase_d2 : Finset.univ.erase (2 : Dev nD) = {0, 1, 3, 4, 5, 6, 7} := by decide
theorem erase_d3 : Finset.univ.erase (3 : Dev nD) = {0, 1, 2, 4, 5, 6, 7} := by decide
theorem erase_d4 : Finset.univ.erase (4 : Dev nD) = {0, 1, 2, 3, 5, 6, 7} := by decide
theorem erase_d5 : Finset.univ.erase (5 : Dev nD) = {0, 1, 2, 3, 4, 6, 7} := by decide
theorem erase_d6 : Finset.univ.erase (6 : Dev nD) = {0, 1, 2, 3, 4, 5, 7} := by decide
theorem erase_d7 : Finset.univ.erase (7 : Dev nD) = {0, 1, 2, 3, 4, 5, 6} := by decide

set_option maxHeartbeats 2000000 in
theorem run0 (c : Dev nD) : Run0 m ρ c := by
  intro arg1 harg1 arg2 harg2 x o Kt
  unfold Φ₀ Φmid start ghost Dat.owesAt Pipeline.owesWithin
  rw [show (dats m ρ 0 c).owed t0_0.castSucc = O₀ c from rfl, O₀]
  generalize hS : sendO c (Finset.univ.erase c) = S
  unfold sigO sigToks
  simp only [com_split]
  unfold owns
  iintro ⟨⟨⟨⟨%K, #Hrec, Hpos, Htoks, Hsend⟩, Hcred, #Hlev⟩, ⟨%fl, Hl⟩, ⟨%fc, Hown, Hrows⟩⟩, ⟨%W, %hW, HO⟩, ⟨%f0, %hf0, H0⟩, ⟨%f1, %hf1, H1⟩, Hk⟩
  obtain rfl := harg1.eq_unread hf0; obtain rfl := harg2.eq_unread hf1
  ihave #HI0 := (rec_bar m K 0) $$ Hrec
  ihave #HB0 := (rec_bar_reached m K 0) $$ Hrec
  ihave #HR0 := (rec_recv_reached m K c 0) $$ Hrec
  ihave #HI1 := (rec_bar m K 1) $$ Hrec
  ihave #HB1 := (rec_bar_reached m K 1) $$ Hrec
  ihave #HR1 := (rec_recv_reached m K c 1) $$ Hrec
  ihave #HI2 := (rec_bar m K 2) $$ Hrec
  ihave #HB2 := (rec_bar_reached m K 2) $$ Hrec
  ihave #HR2 := (rec_recv_reached m K c 2) $$ Hrec
  ihave #HI3 := (rec_bar m K 3) $$ Hrec
  ihave #HB3 := (rec_bar_reached m K 3) $$ Hrec
  ihave #HR3 := (rec_recv_reached m K c 3) $$ Hrec
  ihave #HI4 := (rec_bar m K 4) $$ Hrec
  ihave #HB4 := (rec_bar_reached m K 4) $$ Hrec
  ihave #HR4 := (rec_recv_reached m K c 4) $$ Hrec
  ihave #HI5 := (rec_bar m K 5) $$ Hrec
  ihave #HB5 := (rec_bar_reached m K 5) $$ Hrec
  ihave #HR5 := (rec_recv_reached m K c 5) $$ Hrec
  ihave #HI6 := (rec_bar m K 6) $$ Hrec
  ihave #HB6 := (rec_bar_reached m K 6) $$ Hrec
  ihave #HR6 := (rec_recv_reached m K c 6) $$ Hrec
  ihave #HI7 := (rec_bar m K 7) $$ Hrec
  ihave #HB7 := (rec_bar_reached m K 7) $$ Hrec
  ihave #HR7 := (rec_recv_reached m K c 7) $$ Hrec
  have h8 : ∀ d : Dev nD, d = 0 ∨ d = 1 ∨ d = 2 ∨ d = 3 ∨ d = 4 ∨ d = 5 ∨ d = 6 ∨ d = 7 := by decide
  rcases h8 c with rfl | rfl | rfl | rfl | rfl | rfl | rfl | rfl
  all_goals
    simp (disch := decide) only [erase_d0, erase_d1, erase_d2, erase_d3, erase_d4, erase_d5, erase_d6, erase_d7, BI.bigSep_insert, BI.bigSep_singleton, Finset.sum_insert, Finset.sum_singleton]
    ihave ⟨Htok1, Htok2, Htok3, Htok4, Htok5, Htok6, Htok7⟩ := (sep7 _ _ _ _ _ _ _) $$ Htoks
    ihave ⟨Hrow1, Hrow2, Hrow3, Hrow4, Hrow5, Hrow6, Hrow7⟩ := (sep7 _ _ _ _ _ _ _) $$ Hrows
    unfold bodyOn
    simp only [cc0_body_eq_skeleton]; unfold cc0_body_skel
    simp only [dev1_eq, dev2_eq, dev3_eq, dev4_eq, dev5_eq, dev6_eq, dev7_eq, dev8_eq]
    unfold locPts
    sl_exec (disch := first | decide)
    sl_step
    subst hS
    iapply Hk
    isplitr [HO H0 H1]
    · isplitr; · (iexists K; iexact Hrec)
      iframe Hpos Hsend Hcred
      isplitr; · iexact Hlev
      isplitl [Hl]
      · sl_unfold_words
        rw [View.writes_singleton]
        simp only [View.readAt_eq_ld, harg1.read_unread, View.ld_unit_zero (S := S256x512) hz2]
        rw [show View.write (Elt F) ((View.whole cc0_scratch0).slice (Rect.unit ![0, 0] ![1, 512] inb_S1x512_S1x512_0_0)) fl (k0_pay2 x) Finset.univ = k0_pay2 x from
          Memref.write_access_unit_zero_univ (Elt F) cc0_scratch0 hz2 _ fl _]
        iexact Hl
      · iexists fc; iexact Hown
    isplitl [HO]
    · iexists W; isplitr; · (ipureintro; exact fun _ _ => Or.inl trivial)
      iexact HO
    isplitl [H0]
    · iexists _; isplitr; · (ipureintro; exact harg1.read_unread _)
      iexact H0
    · iexists _; isplitr; · (ipureintro; exact harg2.read_unread _)
      iexact H1

end Cert.KernelIdeal.Hand
end
-- ==== Proof.Levels.lean ====
import proofs.«901074_g7700000000001075_dist_sum_ax0_shard0_i_m1024_n512_v7x_i8_f32_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem lv_bar (p : Dev nD) (u : Unit) : lv (barCell p) u = 1 := rfl

theorem lv_recv (p q : Dev nD) (u : Unit) : lv (recvCell p q) u = 2 := by
  show (if 11 ≤ (recvSem q).val then 2 else 0) = 2
  rw [if_pos (by rw [recvSem_val]; omega)]

theorem lv_below (c : Dev nD) (s : DmaSem sig) (h : s.val < 11) (u : Unit) : lv ((c : Thread nD τ), .dma s) u = 0 := by
  show (if 11 ≤ s.val then 2 else 0) = 0
  rw [if_neg (by omega)]

theorem mem_L (c : Dev nD) (sm : SemLoc sig) (u : Unit) : u ∈ L ((c : Thread nD τ), sm) := by
  rw [L_tc]; exact Finset.mem_singleton.mpr rfl

theorem sendO_pos {c : Dev nD} {S : Finset (Dev nD)} {g : GSem nD τ sig} {u : Unit} (h : 0 < sendO c S g u) :
    ∃ p, g = recvCell p c := by
  unfold sendO at h
  obtain ⟨p, _, hp⟩ := Pipeline.sum_pos_exists h
  exact ⟨p, (Pipeline.tallyAt_pos hp).1⟩

theorem sigO_pos {S : Finset (Dev nD)} {g : GSem nD τ sig} {u : Unit} (h : 0 < sigO S g u) : ∃ p, g = barCell p := by
  unfold sigO at h
  obtain ⟨p, _, hp⟩ := Pipeline.sum_pos_exists h
  exact ⟨p, (Pipeline.tallyAt_pos hp).1⟩

theorem O₀_pos {c : Dev nD} {g : GSem nD τ sig} {u : Unit} (h : 0 < O₀ c g u) :
    (∃ p, g = recvCell p c) ∨ ∃ p, g = barCell p := by
  unfold O₀ at h
  rcases Pipeline.add_pos_cases h with h | h
  · exact Or.inl (sendO_pos h)
  · exact Or.inr (sigO_pos h)

theorem mayWait_bar (c : Dev nD) :
    (levAts L lv : sProp 𝕄) ⊢ MayWait (c : Thread nD τ) (.reg barS) () (sendO c (Finset.univ.erase c)) :=
  Pipeline.mayWait_of_levAts (mem_L c _ _) fun g u hg => by
    obtain ⟨p, rfl⟩ := sendO_pos hg
    refine ⟨mem_L p _ _, ?_⟩
    rw [lv_recv]
    exact (by decide : (1 : ℕ) < 2)

theorem mayWait_low (c : Dev nD) (s : DmaSem sig) (hs : s.val < 11) (O : CellTallies nD τ sig Unit)
    (hO : ∀ g u, 0 < O g u → (∃ p, g = recvCell p c) ∨ ∃ p, g = barCell p) :
    (levAts L lv : sProp 𝕄) ⊢ MayWait (c : Thread nD τ) (.dma s) () O :=
  Pipeline.mayWait_of_levAts (mem_L c _ _) fun g u hg => by
    rw [lv_below c s hs]
    rcases hO g u hg with ⟨p, rfl⟩ | ⟨p, rfl⟩
    · exact ⟨mem_L p _ _, by rw [lv_recv]; decide⟩
    · exact ⟨mem_L p _ _, by rw [lv_bar]; decide⟩

variable (m : (ℓ : Loc nD τ sig) → Buf (Elt F) ℓ) (ρ : Dev nD → PrngReg)

theorem owed_pos (c : Dev nD) (t : Fin (cfg0.N + 1)) {g : GSem nD τ sig} {u : Unit} (h : 0 < (dats m ρ 0 c).owed t g u) :
    (∃ p, g = recvCell p c) ∨ ∃ p, g = barCell p := by
  rcases t with ⟨_ | _ | _ | _ | t, ht⟩
  · exact O₀_pos h
  · exact Or.inl (sendO_pos h)
  · exact Or.inl (sendO_pos h)
  · exact Or.inl (sendO_pos h)
  · exact absurd h (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ fun g u hg => owed_pos m ρ c t hg

end Cert.KernelIdeal.Hand

end
-- ==== Proof.Body3Lib.lean ====
import proofs.«901074_g7700000000001075_dist_sum_ax0_shard0_i_m1024_n512_v7x_i8_f32_1_alg».proof.Proof.BodyLocal
import proofs.«901074_g7700000000001075_dist_sum_ax0_shard0_i_m1024_n512_v7x_i8_f32_1_alg».proof.Proof.Levels
import proofs.«901074_g7700000000001075_dist_sum_ax0_shard0_i_m1024_n512_v7x_i8_f32_1_alg».proof.Proof.Rows

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem rec_cell3 (K : Dev nD × CK → ℕ) (ck : Dev nD × CK) :
    records (F := F) m K ⊢ iprop(cellInv ER (rd m) (K ck) (kcell ck) ∗ reached ER (kcell ck) 0) := by
  unfold records
  exact BIClass.sep_mono
    (show bigSep Finset.univ (fun ck : Dev nD × CK => cellInv ER (rd (F := F) m) (K ck) (kcell ck)) ⊢ cellInv ER (rd (F := F) m) (K ck) (kcell ck)
      from BI.bigSep_elim (Finset.mem_univ ck))
    (show bigSep Finset.univ (fun ck : Dev nD × CK => (reached ER (kcell ck) 0 : sProp 𝕄)) ⊢ reached ER (kcell ck) 0
      from BI.bigSep_elim (Finset.mem_univ ck))

theorem rec_bar3 (K : Dev nD × CK → ℕ) (c : Dev nD) :
    records (F := F) m K ⊢ iprop(cellInv ER (rd m) (K (c, .bar)) (barCell c) ∗ reached ER (barCell c) 0) := rec_cell3 m K (c, .bar)
theorem rec_send3 (K : Dev nD × CK → ℕ) (c q : Dev nD) :
    records (F := F) m K ⊢ iprop(cellInv ER (rd m) (K (c, .send q)) (sendCell c q) ∗ reached ER (sendCell c q) 0) := rec_cell3 m K (c, .send q)
theorem rec_recv3 (K : Dev nD × CK → ℕ) (c q : Dev nD) :
    records (F := F) m K ⊢ iprop(cellInv ER (rd m) (K (c, .recv q)) (recvCell c q) ∗ reached ER (recvCell c q) 0) := rec_cell3 m K (c, .recv q)

theorem payload_bar_raw3 (c d : Dev nD) : (rd (F := F) m).payload (barCell c) 0 d
    = iprop((∃ f, ((rowM c).view.loc (d : Thread nD τ) ↦[(rowM c).view.set]{fullShare} f)) ∗ reached ER (recvCell d c) 0) := rfl

theorem table_row (c : Dev nD) (y : S1x512.Idx) :
    table m ((Rect.unit (s := S8x512) ![c.val, 0] S1x512.size (row_inb c)).emb y) = devSum m c y := by
  unfold table
  have h0 : (y 0).val = 0 := by have := (y 0).isLt; exact Nat.lt_one_iff.mp this
  have e1 : (⟨(((Rect.unit (s := S8x512) ![c.val, 0] S1x512.size (row_inb c)).emb y) 0).val, (((Rect.unit (s := S8x512) ![c.val, 0] S1x512.size (row_inb c)).emb y) 0).isLt⟩ : Dev nD) = c :=
    Fin.ext (by show c.val + 1 * (y 0).val = c.val; omega)
  have e2 : ValueIdx.ix2 (0 : Fin 1) (((Rect.unit (s := S8x512) ![c.val, 0] S1x512.size (row_inb c)).emb y) 1) = y := by
    funext a
    fin_cases a
    · exact Fin.ext (by show 0 = (y 0).val; omega)
    · exact Fin.ext (by show 0 + 1 * (y 1).val = (y 1).val; omega)
  rw [e1]
  exact congrArg (devSum m c) e2

theorem row_landed (c p : Dev nD) (fd : Buf (Elt F) ((rowM c).view.loc (p : Thread nD τ))) :
    ((rowM c).view.loc (p : Thread nD τ) ↦[(rowM c).view.set]{fullShare}
        ((rowM c).view.write (Elt F) fd ((locM : Memref sig .tc .vmem S1x512 .f32).view.read (Elt F) (sumBuf m c)) Finset.univ) : sProp 𝕄)
      = rowPts p c (tableBuf m p) := by
  unfold rowPts
  refine pointsTo_congr fun i hi => ?_
  obtain ⟨y, rfl⟩ := View.exists_emb_of_mem_set _ hi
  rw [View.write_emb_of_mem _ _ (Finset.mem_univ y)]
  exact (table_row m c y).symm

theorem send_step (c p : Dev nD) (hp : p ≠ c) {κ₁ κ₂ : ℕ} (fd : Buf (Elt F) ((rowM c).view.loc (p : Thread nD τ)))
    {hsc hsrc hdst hsem} {α : Type} {k : PUnit → Prog (TpuEff nD τ sig (Elt F) Λ₀ .tc) α} {Q : α → sProp 𝕄}
    (O : CellTallies nD τ sig Unit) {O₀ : CellTallies nD τ sig Unit} (hO : O₀ = O + tallyAt (recvCell p c) () N) {W : Waits sig Unit} :
    iprop(cellInv ER (rd m) κ₁ (sendCell c p) ∗ cellInv ER (rd m) κ₂ (recvCell p c)
        ∗ ((locM : Memref sig .tc .vmem S1x512 .f32).view.loc (c : Thread nD τ) ↦[(locM : Memref sig .tc .vmem S1x512 .f32).view.set]{tokShare p} devSum m c) ∗ ((rowM c).view.loc (p : Thread nD τ) ↦[(rowM c).view.set]{fullShare} fd)
        ∗ owes (c : Thread nD τ) O₀ W
        ∗ dutyTok ER (sendCell c p) 0 p ∗ reached ER (sendCell c p) 0
        ∗ dutyTok ER (recvCell p c) 0 c ∗ reached ER (recvCell p c) 0)
      ⊢ iprop(((cred (tallyAt (sendCell c p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (locM : Memref sig .tc .vmem S1x512 .f32) (.remote (p : Thread nD τ) (rowM c) (.dma (sendSem p)) hsc) (.dma (recvSem c)) hsrc hdst hsem) k) Q) :=
  Rounds.wp_send_pointsTo 𝒱₀ ER (rd m) (c : Thread nD τ) none (c' := (p : Thread nD τ)) (src := locM) (dst := rowM c) (q := tokShare p) (fs := sumBuf m c) (fd := fd)
    (by rw [duties_send m c p hp]; exact Finset.mem_singleton_self _) (by rw [duties_recv m p c hp.symm]; exact Finset.mem_singleton_self _)
    () () N rfl (amount_send m c p p) (amount_recv m p c c) O hO
    (by rw [payload_send]; exact .rfl) (by rw [payload_recv, row_landed]; exact .rfl)

theorem send_rec (K : Dev nD × CK → ℕ) (c p : Dev nD) (hp : p ≠ c) (fd : Buf (Elt F) ((rowM c).view.loc (p : Thread nD τ)))
    {hsc hsrc hdst hsem} {α : Type} {k : PUnit → Prog (TpuEff nD τ sig (Elt F) Λ₀ .tc) α} {Q : α → sProp 𝕄}
    (O : CellTallies nD τ sig Unit) {O₀ : CellTallies nD τ sig Unit} (hO : O₀ = O + tallyAt (recvCell p c) () N) {W : Waits sig Unit} :
    iprop(records m K ∗ ((locM : Memref sig .tc .vmem S1x512 .f32).view.loc (c : Thread nD τ) ↦[(locM : Memref sig .tc .vmem S1x512 .f32).view.set]{tokShare p} devSum m c) ∗ ((rowM c).view.loc (p : Thread nD τ) ↦[(rowM c).view.set]{fullShare} fd) ∗ owes (c : Thread nD τ) O₀ W
        ∗ dutyTok ER (sendCell c p) 0 p ∗ dutyTok ER (recvCell p c) 0 c)
      ⊢ iprop(((cred (tallyAt (sendCell c p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (locM : Memref sig .tc .vmem S1x512 .f32) (.remote (p : Thread nD τ) (rowM c) (.dma (sendSem p)) hsc) (.dma (recvSem c)) hsrc hdst hsem) k) Q) := by
  iintro ⟨#Hrec, Hs, Hd, HO, Ht1, Ht2⟩
  ihave HX := (rec_send3 m K c p) $$ Hrec
  icases HX with ⟨#HI1, #HR1⟩
  ihave HY := (rec_recv3 m K p c) $$ Hrec
  icases HY with ⟨#HI2, #HR2⟩
  iapply (send_step m c p hp fd O hO)
  isplitl []; · iexact HI1
  isplitl []; · iexact HI2
  isplitl [Hs]; · iexact Hs
  isplitl [Hd]; · iexact Hd
  isplitl [HO]; · iexact HO
  isplitl [Ht1]; · iexact Ht1
  isplitl []; · iexact HR1
  isplitl [Ht2]; · iexact Ht2
  iexact HR2

theorem payload_send_raw (c q d : Dev nD) : (rd (F := F) m).payload (sendCell c q) 0 d
    = ((locM : Memref sig .tc .vmem S1x512 .f32).view.loc (c : Thread nD τ) ↦[(locM : Memref sig .tc .vmem S1x512 .f32).view.set]{tokShare q} sumBuf m c) := by
  rw [payload_send]; rfl
theorem payload_recv_raw (c q d : Dev nD) : (rd (F := F) m).payload (recvCell c q) 0 d
    = ((rowM q).view.loc (c : Thread nD τ) ↦[(rowM q).view.set]{fullShare} tableBuf m c) := by
  rw [payload_recv]; rfl

theorem acc_store (arg1 : Memref sig .tc .vmem S256x512 .f32) (harg1 : arg1.IsWhole) (x : Vec F S256x512 .f32) (a : Vec F S1x512 .f32) :
    (locM : Memref sig .tc .vmem S1x512 .f32).view.writes (Elt F) a
      [⟨Rect.unit (s := S1x512) ![0, 0] S1x512.size inb_S1x512_S1x512_0_0,
        k0_pay3 (View.readAt (Elt F) arg1.view (Rect.unit (s := S256x512) ![0, 0] S256x512.size inb_S256x512_S256x512_0_0).toLoadRect (harg1.unread x))
          (View.readAt (Elt F) (locM : Memref sig .tc .vmem S1x512 .f32).view (Rect.unit (s := S1x512) ![0, 0] S1x512.size inb_S1x512_S1x512_0_0).toLoadRect a)⟩]
    = k0_pay3 x a := by
  rw [View.writes_singleton]
  simp only [View.readAt_eq_ld, harg1.read_unread, View.ld_unit_zero (S := S256x512) hz2, View.ld_unit_zero (S := S1x512) hz2]
  rw [View.read_whole]
  exact Memref.write_access_unit_zero_univ (Elt F) cc0_scratch0 hz2 _ a _

theorem own_row_congr (c : Dev nD) (g : Buf (Elt F) ((rowM c).view.loc (c : Thread nD τ)))
    (hg : ∀ y : S1x512.Idx, g ((rowM c).view.emb y) = devSum m c y) :
    (((rowM c).view.loc (c : Thread nD τ) ↦[(rowM c).view.set]{fullShare} g) : sProp 𝕄) = ((rowM c).view.loc (c : Thread nD τ) ↦[(rowM c).view.set]{fullShare} tableBuf m c) := by
  refine pointsTo_congr fun i hi => ?_
  obtain ⟨y, rfl⟩ := View.exists_emb_of_mem_set _ hi
  exact (hg y).trans (table_row m c y).symm

theorem own_row_ent (c : Dev nD) (g : Buf (Elt F) ((rowM c).view.loc (c : Thread nD τ)))
    (hg : ∀ y : S1x512.Idx, g ((rowM c).view.emb y) = devSum m c y) :
    (((rowM c).view.loc (c : Thread nD τ) ↦[(rowM c).view.set]{fullShare} g) : sProp 𝕄) ⊢ ((rowM c).view.loc (c : Thread nD τ) ↦[(rowM c).view.set]{fullShare} tableBuf m c) := by
  rw [own_row_congr m c g hg]

theorem own_row_val (c : Dev nD) (fr : Buf (Elt F) ((rowM c).view.loc (c : Thread nD τ))) {off : Fin 2 → Nat} (hoff : off = ![c.val, 0])
    {inb : ∀ a, off a + S1x512.size a ≤ S8x512.size a} {h1} (y : S1x512.Idx) :
    View.write (Elt F) ((Memref.whole cc0_scratch1 : Memref sig .tc .vmem S8x512 .f32).access (Rect.unit (s := S8x512) off S1x512.size inb)) fr
        (k0_pay4 (View.readAt (Elt F) (locM : Memref sig .tc .vmem S1x512 .f32).view (Rect.unit (s := S1x512) ![0, 0] S1x512.size h1).toLoadRect (devSum m c))) Finset.univ
        ((rowM c).view.emb y) = devSum m c y := by
  subst hoff
  have e : k0_pay4 (View.readAt (Elt F) (locM : Memref sig .tc .vmem S1x512 .f32).view (Rect.unit (s := S1x512) ![0, 0] S1x512.size h1).toLoadRect (devSum m c)) = devSum m c := by
    unfold k0_pay4
    refine (shapeCast_self (s := S1x512) _ _).trans ?_
    rw [View.readAt_eq_ld, View.read_whole, View.ld_unit_zero hz2]
  rw [e]
  exact View.write_emb_of_mem (v := ((Memref.whole cc0_scratch1 : Memref sig .tc .vmem S8x512 .f32).access (Rect.unit (s := S8x512) ![c.val, 0] S1x512.size inb))) fr (devSum m c) (Finset.mem_univ y)

theorem close_send_used (K : Dev nD × CK → ℕ) (c q : Dev nD) :
    records (F := F) m K ⊢ iprop(atPos ER (sendCell c q) 1 ∅ 0 -∗ |={Set.univ}=> semVal (sendCell c q) 0) := by
  iintro #Hrec Hat
  ihave HX := (rec_send3 m K c q) $$ Hrec
  icases HX with ⟨#HI, -⟩
  iapply (Rounds.cell_close ER (rd m) (Set.mem_univ _) (fun h => h) (fun r hr => duties_later m _ r hr))
  isplitl []; · iexact HI
  iexact Hat

theorem close_recv_used (K : Dev nD × CK → ℕ) (c q : Dev nD) :
    records (F := F) m K ⊢ iprop(atPos ER (recvCell c q) 1 ∅ 0 -∗ |={Set.univ}=> semVal (recvCell c q) 0) := by
  iintro #Hrec Hat
  ihave HX := (rec_recv3 m K c q) $$ Hrec
  icases HX with ⟨#HI, -⟩
  iapply (Rounds.cell_close ER (rd m) (Set.mem_univ _) (fun h => h) (fun r hr => duties_later m _ r hr))
  isplitl []; · iexact HI
  iexact Hat

theorem close_send_self (K : Dev nD × CK → ℕ) (c : Dev nD) :
    records (F := F) m K ⊢ iprop(atPos ER (sendCell c c) 0 ∅ 0 -∗ |={Set.univ}=> semVal (sendCell c c) 0) := by
  iintro #Hrec Hat
  ihave HX := (rec_send3 m K c c) $$ Hrec
  icases HX with ⟨#HI, -⟩
  iapply (Rounds.cell_close ER (rd m) (Set.mem_univ _) (fun h => h) (fun r _ => duties_send_self m c r))
  isplitl []; · iexact HI
  iexact Hat

theorem close_recv_self (K : Dev nD × CK → ℕ) (c : Dev nD) :
    records (F := F) m K ⊢ iprop(atPos ER (recvCell c c) 0 ∅ 0 -∗ |={Set.univ}=> semVal (recvCell c c) 0) := by
  iintro #Hrec Hat
  ihave HX := (rec_recv3 m K c c) $$ Hrec
  icases HX with ⟨#HI, -⟩
  iapply (Rounds.cell_close ER (rd m) (Set.mem_univ _) (fun h => h) (fun r _ => duties_recv_self m c r))
  isplitl []; · iexact HI
  iexact Hat

theorem ownSems0_eq3 (c : Dev nD) : (Pipeline.ownSems0 osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
      ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [(0, 0), (0, 1), (0, 2), (0, 3), (0, 4), (0, 5), (0, 6), (0, 7), (1, 0), (1, 1), (1, 2), (1, 3), (1, 4), (1, 5), (1, 6), (1, 7)] (by decide) (by decide)]
  rfl

omit [FloatOps F] in
theorem unit_zero_emb {S : Shape} {off : Fin S.rank → Nat} (h : off = fun _ => 0) (inb : ∀ a, off a + S.size a ≤ S.size a) (y : S.Idx) :
    (Rect.unit off S.size inb).emb y = y := by
  subst h; exact Rect.emb_whole_apply S y

theorem out_store (arg2 : Memref sig .tc .vmem S1x512 .f32) (f : arg2.view.ty.Contents (Elt F)) (c : Dev nD) {h1 h2} :
    arg2.view.read (Elt F) (arg2.view.writes (Elt F) f
      [⟨Rect.unit (s := S1x512) ![0, 0] S1x512.size h1,
        k0_pay5 (View.readAt (Elt F) (comM : Memref sig .tc .vmem S8x512 .f32).view (Rect.unit (s := S8x512) ![0, 0] S8x512.size h2).toLoadRect (tableBuf m c))⟩]) = total m := by
  have e : View.readAt (Elt F) (comM : Memref sig .tc .vmem S8x512 .f32).view (Rect.unit (s := S8x512) ![0, 0] S8x512.size h2).toLoadRect (tableBuf m c) = table m := by
    rw [View.readAt_eq_ld, View.read_whole, View.ld_unit_zero hz2]; rfl
  rw [e]
  funext y
  have h := View.read_writes_cons_emb arg2.view f (Rect.unit (s := S1x512) ![0, 0] S1x512.size h1) (k0_pay5 (table m)) [] y
  rw [unit_zero_emb hz2 h1 y] at h
  exact h

end Cert.KernelIdeal.Hand
end
-- ==== Proof.Launch.lean ====
import proofs.«901074_g7700000000001075_dist_sum_ax0_shard0_i_m1024_n512_v7x_i8_f32_1_alg».proof.Proof.Levels

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem bar_eq_iff {a b : Dev nD} : barCell a = barCell b ↔ a = b :=
  ⟨fun h => congrArg (fun g : GSem nD τ sig => g.1.1) h, fun h => h ▸ rfl⟩

theorem sendSem_inj {q q' : Dev nD} (h : sendSem q = sendSem q') : q = q' := by
  have := congrArg semPeer h; rwa [semPeer_send, semPeer_send] at this
theorem recvSem_inj {q q' : Dev nD} (h : recvSem q = recvSem q') : q = q' := by
  have := congrArg semPeer h; rwa [semPeer_recv, semPeer_recv] at this
theorem sendSem_ne_recvSem (q q' : Dev nD) : sendSem q ≠ recvSem q' := fun h => by
  have h1 := congrArg Fin.val h
  rw [sendSem_val, recvSem_val] at h1
  have : q.val < 8 := q.isLt
  omega

theorem recv_eq_iff {a b q q' : Dev nD} : recvCell a q = recvCell b q' ↔ a = b ∧ q = q' :=
  ⟨fun h => ⟨congrArg (fun g : GSem nD τ sig => g.1.1) h, recvSem_inj (SemLoc.dma.inj (congrArg Prod.snd h))⟩,
    fun h => by rw [h.1, h.2]⟩
theorem recv_ne_bar (a q b : Dev nD) : recvCell a q ≠ barCell b := fun h => by cases congrArg Prod.snd h
theorem bar_ne_recv (a q b : Dev nD) : barCell b ≠ recvCell a q := fun h => by cases congrArg Prod.snd h

theorem csem_injective : Function.Injective csem := by
  intro k k' h
  cases k with
  | bar => cases k' with
    | bar => rfl
    | send q' => cases h
    | recv q' => cases h
  | send q => cases k' with
    | bar => cases h
    | send q' => rw [sendSem_inj (SemLoc.dma.inj h)]
    | recv q' => exact absurd (SemLoc.dma.inj h) (sendSem_ne_recvSem q q')
  | recv q => cases k' with
    | bar => cases h
    | send q' => exact absurd (SemLoc.dma.inj h).symm (sendSem_ne_recvSem q' q)
    | recv q' => rw [recvSem_inj (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  subst h1
  have hk : k = k' := csem_injective (congrArg Prod.snd h)
  rw [hk]

def allCells : Finset (GSem nD τ sig) := Finset.univ.map ⟨kcell, kcell_injective⟩

def ckEquiv : Unit ⊕ (Dev nD ⊕ Dev nD) ≃ CK where
  toFun := fun | .inl _ => .bar | .inr (.inl q) => .send q | .inr (.inr q) => .recv q
  invFun := fun | .bar => .inl () | .send q => .inr (.inl q) | .recv q => .inr (.inr q)
  left_inv := fun | .inl _ => rfl | .inr (.inl _) => rfl | .inr (.inr _) => rfl
  right_inv := fun | .bar => rfl | .send _ => rfl | .recv _ => rfl

theorem bigSep_CK {M : Type} [URA M] (Φ : CK → sProp M) :
    bigSep Finset.univ Φ = iprop(Φ .bar ∗ (bigSep Finset.univ fun q : Dev nD => Φ (.send q)) ∗ bigSep Finset.univ fun q : Dev nD => Φ (.recv q)) := by
  rw [bigSep_univ_equiv ckEquiv Φ, bigSep_univ_sum, bigSep_univ_sum, bigSep_univ_of_subsingleton ()]
  rfl

def ckOf (j : Fin 3) (q : Dev nD) : CK := match j with | 0 => .bar | 1 => .send q | 2 => .recv q

theorem ckOf_injective (q : Dev nD) : Function.Injective (fun j => ckOf j q) := by
  intro j j' h
  fin_cases j <;> fin_cases j' <;> first | rfl | cases h

abbrev TI : Type := (_ : Dev nD) × ((_ : Dev nD) × Fin 3)

def tokOf (x : TI) : GSem nD τ sig × ℕ × Dev nD := (kcell (x.1, ckOf x.2.2 x.2.1), 0, x.2.1)

theorem tokOf_injective : Function.Injective tokOf := by
  rintro ⟨c, q, j⟩ ⟨c', q', j'⟩ h
  have hq : q = q' := congrArg (fun x : GSem nD τ sig × ℕ × Dev nD => x.2.2) h
  subst hq
  have hk := kcell_injective (congrArg (fun x : GSem nD τ sig × ℕ × Dev nD => x.1) h)
  have hc : c = c' := congrArg Prod.fst hk
  subst hc
  have hj : j = j' := ckOf_injective q (congrArg Prod.snd hk)
  rw [hj]

def tokIdx : Finset TI := Finset.univ.sigma fun c => (Finset.univ.erase c).sigma fun _ => Finset.univ
def allToks : Finset (GSem nD τ sig × ℕ × Dev nD) := tokIdx.map ⟨tokOf, tokOf_injective⟩

def u₀ : UU :=
  (initOf (Pipeline.cells cfgs cellOf_inj) (Pipeline.launchToks cfgs cellOf_inj), initOf allCells allToks)

def ownToks (c : Dev nD) : sProp 𝕄 :=
  bigSep (Finset.univ.erase c) fun q => iprop(dutyTok ER (barCell c) 0 q ∗ dutyTok ER (sendCell c q) 0 q ∗ dutyTok ER (recvCell c q) 0 q)

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ ownToks c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks tokIdx; rw [bigSep_map, Pipeline.bigSep_sigma]
    refine bigSep_congr fun c _ => ?_
    unfold ownToks; rw [Pipeline.bigSep_sigma]
    exact bigSep_congr fun q _ => by rw [bigSep_fin3]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = iprop((bigSep Finset.univ fun q : Dev nD => semVal (sendCell c q) 0) ∗ bigSep Finset.univ fun q : Dev nD => semVal (recvCell c q) 0) := by
  unfold Pipeline.ownSems0; rw [bigSep_univ_prod, bigSep_univ_two]
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in

theorem toks_deal : (bigSep Finset.univ fun c : Dev nD => (ownToks c : sProp 𝕄)) ⊢ bigSep Finset.univ fun c : Dev nD => iprop(sigToks c ∗ sendToks c) := by
  unfold ownToks sigToks sendToks
  simp only [bigSep_sep']
  rw [bigSep_erase_comm (fun c q : Dev nD => (dutyTok ER (barCell c) 0 q : sProp 𝕄)),
    bigSep_erase_comm (fun c q : Dev nD => (dutyTok ER (recvCell c q) 0 q : sProp 𝕄))]
  iintro ⟨HB, HS, HR⟩
  isplitl [HB]; · iexact HB
  isplitl [HR]; · iexact HR
  iexact HS

omit [FloatOps F] in
theorem bigSep_frame_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem ghost_intro (K : Dev nD × CK → ℕ) (c : Dev nD) : iprop(records m K ∗ positions c ∗ sigToks c ∗ sendToks c) ⊢ G' m c := by
  unfold G' ghost
  iintro ⟨#HR, Hp, Hs, Ht⟩
  iexists K
  isplitr; · iexact HR
  isplitl [Hp]; · iexact Hp
  isplitl [Hs] <;> iassumption

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_deal (F := F)) $$ Htok
  iapply (bigSep_frame_persistent (R := records m K) fun c _ => ghost_intro m K c)
  isplitr
  · unfold records; isplitl; · iexact HI
    iexact HR
  · iapply (Entails.of_eq (bigSep_sep' Finset.univ (fun c : Dev nD => (positions c : sProp 𝕄)) (fun c => iprop(sigToks c ∗ sendToks c))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem sendO_bar (d c : Dev nD) (S : Finset (Dev nD)) : sendO d S (barCell c) () = 0 := by
  unfold sendO
  rw [Pipeline.sum_tallyAt_cells S (cell := fun p => recvCell p d) (fun a b h => (recv_eq_iff.mp h).1) () N (barCell c) (),
    if_neg fun h => by obtain ⟨⟨p, _, hp⟩, _⟩ := h; exact recv_ne_bar _ _ _ hp]

omit [FloatOps F] in
theorem sigO_recv (c q : Dev nD) (S : Finset (Dev nD)) : sigO S (recvCell c q) () = 0 := by
  unfold sigO
  rw [Pipeline.sum_tallyAt_cells S (cell := fun p => barCell p) (fun a b h => bar_eq_iff.mp h) () 1 (recvCell c q) (),
    if_neg fun h => by obtain ⟨⟨p, _, hp⟩, _⟩ := h; exact bar_ne_recv _ _ _ hp]

omit [FloatOps F] in

theorem owed_bar (d c : Dev nD) : O₀ d (barCell c) () = if d ≠ c then 1 else 0 := by
  unfold O₀
  rw [Pi.add_apply, Finsupp.add_apply, sendO_bar, Nat.zero_add]
  unfold sigO
  rw [Pipeline.sum_tallyAt_cells (Finset.univ.erase d) (cell := fun p => barCell p) (fun a b h => bar_eq_iff.mp h) () 1 (barCell c) ()]
  by_cases h : d = c
  · rw [if_neg (fun h' => by
      obtain ⟨⟨p, hp, hpc⟩, _⟩ := h'
      exact (Finset.mem_erase.mp hp).1 ((bar_eq_iff.mp hpc).trans h.symm)), if_neg (not_not.mpr h)]
  · rw [if_pos ⟨⟨c, Finset.mem_erase.mpr ⟨fun h' => h h'.symm, Finset.mem_univ _⟩, rfl⟩, rfl⟩, if_pos h]

omit [FloatOps F] in

theorem owed_recv (d c q : Dev nD) (hq : q ≠ c) : O₀ d (recvCell c q) () = if d = q then N else 0 := by
  unfold O₀
  rw [Pi.add_apply, Finsupp.add_apply, sigO_recv, Nat.add_zero]
  unfold sendO
  rw [Pipeline.sum_tallyAt_cells (Finset.univ.erase d) (cell := fun p => recvCell p d) (fun a b h => (recv_eq_iff.mp h).1) () N (recvCell c q) ()]
  by_cases h : d = q
  · subst h
    rw [if_pos ⟨⟨c, Finset.mem_erase.mpr ⟨fun h' => hq h'.symm, Finset.mem_univ _⟩, rfl⟩, rfl⟩, if_pos rfl]
  · rw [if_neg (fun h' => by
      obtain ⟨⟨p, _, hpc⟩, _⟩ := h'
      exact h (recv_eq_iff.mp hpc).2), if_neg h]

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_boole,
    Finset.filter_ne' Finset.univ c, Finset.card_erase_of_mem (Finset.mem_univ _), Finset.card_univ, Fintype.card_fin]
  rfl

omit [FloatOps F] in
theorem launch_recv (c q : Dev nD) (hq : q ≠ c) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q hq,
    Finset.sum_ite_eq' Finset.univ q fun _ => N, if_pos (Finset.mem_univ _)]

omit [FloatOps F] in
theorem recvLoc_injective : Function.Injective (fun q : Dev nD => (SemLoc.dma (recvSem q) : SemLoc sig)) :=
  fun a b h => recvSem_inj (SemLoc.dma.inj h)

omit [FloatOps F] in

theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.erase c).map ⟨_, recvLoc_injective⟩ ⊆ (Finset.univ : Finset (SemLoc sig)).erase (SemLoc.reg barS) := fun sm hsm => by
    obtain ⟨q, _, rfl⟩ := Finset.mem_map.mp hsm
    exact Finset.mem_erase.mpr ⟨fun h => (by cases h), Finset.mem_univ _⟩
  refine (bigSep_subset hsub).trans ?_
  rw [bigSep_map]
  exact bigSep_mono (s := Finset.univ.erase c) fun q hq => Entails.of_eq (congrArg cred (launch_recv c q (Finset.mem_erase.mp hq).1))

omit [FloatOps F] in
theorem locPts_eq (c : Dev nD) (q : PosShare TreeShare) (f : Buf (Elt F) ((c : Thread nD τ).loc cc0_scratch0)) :
    locPts c q f = (((c : Thread nD τ).loc cc0_scratch0) ↦{q} f : sProp 𝕄) := by unfold locPts; rw [View.set_whole]
omit [FloatOps F] in
theorem comPts_eq (c : Dev nD) (f : Buf (Elt F) ((c : Thread nD τ).loc cc0_scratch1)) :
    comPts c f = (((c : Thread nD τ).loc cc0_scratch1) ↦{fullShare} f : sProp 𝕄) := by unfold comPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hl⟩, ⟨%g, Hc⟩⟩
  isplitl [Hs]; · iexact Hs
  isplitl [Hl]
  · iexists f; rw [locPts_eq]; iexact Hl
  · iexists g; rw [comPts_eq]; iexact Hc

theorem phi4_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₄ m c from rfl, scopedRest0_eq]
  unfold Φ₄
  iintro ⟨Hl, Hc, Hz⟩
  isplitr; · iempintro
  isplitl [Hz]; · iexact Hz
  isplitl [Hl]
  · iexists (sumBuf m c); rw [← locPts_eq]; iexact Hl
  · iexists (tableBuf m c); rw [← comPts_eq]; iexact Hc

theorem final_in (c : Dev nD) : (dats m ρ 0 c).arrAt (0 : Fin 2) cfg0.N = m ((c : Thread nD τ).loc main_arg0) :=
  (dats (F := F) m ρ 0 c).arrAt_in (0 : Fin 2) rfl _

theorem final_out (c : Dev nD) : (dats m ρ 0 c).arrAt (1 : Fin 2) cfg0.N = totalBuf m c := by
  have h := (dats (F := F) m ρ 0 c).arrAt_succ (1 : Fin 2) t0_3
  rw [if_pos ((flush0_1 t0_3).mpr rfl)] at h
  refine (show (dats m ρ 0 c).arrAt (1 : Fin 2) cfg0.N = (dats m ρ 0 c).arrAt (1 : Fin 2) (t0_3.val + 1) from rfl).trans (h.trans ?_)
  exact Memref.write_access_unit_zero_univ (Elt F) main_v1 (funext fun a => by fin_cases a <;> rfl) _ _ _

set_option maxRecDepth 8000 in

theorem run_of_body (hbody : ∀ c : Dev nD, BodyObligation (dats (F := F) m ρ 0 c) (defs₀ (F := F)) 𝒱₀ () Set.univ) :
    θ_run (defs (F := F)) (onTc (τ := τ) (main (F := F))) ⟨m, fun _ => 0, ρ⟩ (RunPost m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi4_exit m ρ)
    (QY := fun _ _ => True)
    (hY := fun c s' => by
      iintro ⟨-, -, HSI⟩
      imodintro
      isplitr; · ipureintro; trivial
      iexact HSI)
    (hQ := fun s h c => ⟨((h c).1 (1 : Fin 2)).trans (final_out m ρ c), ((h c).1 (0 : Fin 2)).trans (final_in m ρ c)⟩)

end Cert.KernelIdeal.Hand

end
-- ==== Proof.Body3.lean ====
import proofs.«901074_g7700000000001075_dist_sum_ax0_shard0_i_m1024_n512_v7x_i8_f32_1_alg».proof.Proof.Body3Lib
import proofs.«901074_g7700000000001075_dist_sum_ax0_shard0_i_m1024_n512_v7x_i8_f32_1_alg».proof.Proof.Launch

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem acc_split' (c : Dev nD) (f : Buf (Elt F) ((locM : Memref sig .tc .vmem S1x512 .f32).view.loc (c : Thread nD τ))) :
    (locPts c fullShare f : sProp 𝕄) ⊢ iprop(locPts c restShare f ∗ locPts c (tokShare c) f ∗ bigSep (Finset.univ.erase c) fun p => locPts c (tokShare p) f) := by
  unfold locPts
  refine (Transfers.pointsTo_toks_split fullShare 8).trans ?_
  rw [BI.bigSep_univ_split c]; exact .rfl

theorem acc_join' (c : Dev nD) (f : Buf (Elt F) ((locM : Memref sig .tc .vmem S1x512 .f32).view.loc (c : Thread nD τ))) :
    iprop(locPts c restShare f ∗ locPts c (tokShare c) f ∗ bigSep (Finset.univ.erase c) fun p => locPts c (tokShare p) f) ⊢ (locPts c fullShare f : sProp 𝕄) := by
  unfold locPts
  refine BIBase.Entails.trans ?_ (Transfers.pointsTo_toks_join fullShare 8)
  rw [BI.bigSep_univ_split c]; exact .rfl

theorem com_join' (c : Dev nD) (f : Buf (Elt F) ((comM : Memref sig .tc .vmem S8x512 .f32).view.loc (c : Thread nD τ))) :
    iprop(rowPts c c f ∗ bigSep (Finset.univ.erase c) fun r => rowPts c r f) ⊢ (comPts c f : sProp 𝕄) := by
  rw [com_rows, BI.bigSep_univ_split c]; exact .rfl

theorem positions_split (c : Dev nD) : positions (F := F) c = iprop(atPos ER (barCell c) 0 ∅ 0
    ∗ (atPos ER (sendCell c c) 0 ∅ 0 ∗ bigSep (Finset.univ.erase c) fun q => atPos ER (sendCell c q) 0 ∅ 0)
    ∗ (atPos ER (recvCell c c) 0 ∅ 0 ∗ bigSep (Finset.univ.erase c) fun q => atPos ER (recvCell c q) 0 ∅ 0)) := by
  unfold positions
  rw [bigSep_CK, BI.bigSep_univ_split c, BI.bigSep_univ_split c]
  rfl

theorem close_sends (K : Dev nD × CK → ℕ) (c : Dev nD) :
    iprop(records (F := F) m K ∗ bigSep (Finset.univ.erase c) fun q => atPos ER (sendCell c q) 1 ∅ 0)
      ⊢ iprop(|={Set.univ}=> bigSep (Finset.univ.erase c) fun q => semVal (sendCell c q) 0) :=
  (bigSep_frame_persistent (R := records m K) fun q _ => (sep_mono_left (close_send_used m K c q)).trans wand_elim_left).trans (bigSep_fupd _ _)

theorem close_recvs (K : Dev nD × CK → ℕ) (c : Dev nD) :
    iprop(records (F := F) m K ∗ bigSep (Finset.univ.erase c) fun q => atPos ER (recvCell c q) 1 ∅ 0)
      ⊢ iprop(|={Set.univ}=> bigSep (Finset.univ.erase c) fun q => semVal (recvCell c q) 0) :=
  (bigSep_frame_persistent (R := records m K) fun q _ => (sep_mono_left (close_recv_used m K c q)).trans wand_elim_left).trans (bigSep_fupd _ _)

theorem own_row_done (c : Dev nD) (fr : Buf (Elt F) ((rowM c).view.loc (c : Thread nD τ))) :
    (((rowM c).view.loc (c : Thread nD τ) ↦[(rowM c).view.set]{fullShare}
        View.write (Elt F) ((Memref.whole cc0_scratch1 : Memref sig .tc .vmem S8x512 .f32).access (Rect.unit (s := S8x512) ![c.val, 0] S1x512.size (row_inb c))) fr
          (k0_pay4 (View.readAt (Elt F) (locM : Memref sig .tc .vmem S1x512 .f32).view (Rect.unit (s := S1x512) ![0, 0] S1x512.size inb_S1x512_S1x512_0_0).toLoadRect (devSum m c))) Finset.univ) : sProp 𝕄)
      ⊢ ((rowM c).view.loc (c : Thread nD τ) ↦[(rowM c).view.set]{fullShare} tableBuf m c) :=
  own_row_ent m c _ fun y => own_row_val (F := F) m c fr rfl y

theorem eraseQ_d0 (Φ : Dev nD → sProp 𝕄) : bigSep (Finset.univ.erase (0 : Dev nD)) Φ = iprop(Φ 6 ∗ Φ 2 ∗ Φ 5 ∗ Φ 7 ∗ Φ 1 ∗ Φ 3 ∗ Φ 4) := by
  rw [BI.bigSep_eq_bigSepL_of_eq [6, 2, 5, 7, 1, 3, 4] (by decide) (by decide)]; rfl
theorem sumQ_d0 (f : Dev nD → CellTallies nD τ sig Unit) : ∑ p ∈ Finset.univ.erase (0 : Dev nD), f p = f 6 + (f 2 + (f 5 + (f 7 + (f 1 + (f 3 + (f 4)))))) := by
  rw [show (Finset.univ.erase (0 : Dev nD)) = [6, 2, 5, 7, 1, 3, 4].toFinset by decide, List.sum_toFinset _ (by decide)]
  simp only [List.map_cons, List.map_nil, List.sum_cons, List.sum_nil, add_zero]
theorem duties_barQ_d0 : (rd (F := F) m).duties (barCell (0 : Dev nD)) 0 = {6, 2, 5, 7, 1, 3, 4} := by rw [duties_bar]; decide
theorem eraseQ_d1 (Φ : Dev nD → sProp 𝕄) : bigSep (Finset.univ.erase (1 : Dev nD)) Φ = iprop(Φ 7 ∗ Φ 3 ∗ Φ 4 ∗ Φ 6 ∗ Φ 0 ∗ Φ 2 ∗ Φ 5) := by
  rw [BI.bigSep_eq_bigSepL_of_eq [7, 3, 4, 6, 0, 2, 5] (by decide) (by decide)]; rfl
theorem sumQ_d1 (f : Dev nD → CellTallies nD τ sig Unit) : ∑ p ∈ Finset.univ.erase (1 : Dev nD), f p = f 7 + (f 3 + (f 4 + (f 6 + (f 0 + (f 2 + (f 5)))))) := by
  rw [show (Finset.univ.erase (1 : Dev nD)) = [7, 3, 4, 6, 0, 2, 5].toFinset by decide, List.sum_toFinset _ (by decide)]
  simp only [List.map_cons, List.map_nil, List.sum_cons, List.sum_nil, add_zero]
theorem duties_barQ_d1 : (rd (F := F) m).duties (barCell (1 : Dev nD)) 0 = {7, 3, 4, 6, 0, 2, 5} := by rw [duties_bar]; decide
theorem eraseQ_d2 (Φ : Dev nD → sProp 𝕄) : bigSep (Finset.univ.erase (2 : Dev nD)) Φ = iprop(Φ 4 ∗ Φ 0 ∗ Φ 7 ∗ Φ 5 ∗ Φ 3 ∗ Φ 1 ∗ Φ 6) := by
  rw [BI.bigSep_eq_bigSepL_of_eq [4, 0, 7, 5, 3, 1, 6] (by decide) (by decide)]; rfl
theorem sumQ_d2 (f : Dev nD → CellTallies nD τ sig Unit) : ∑ p ∈ Finset.univ.erase (2 : Dev nD), f p = f 4 + (f 0 + (f 7 + (f 5 + (f 3 + (f 1 + (f 6)))))) := by
  rw [show (Finset.univ.erase (2 : Dev nD)) = [4, 0, 7, 5, 3, 1, 6].toFinset by decide, List.sum_toFinset _ (by decide)]
  simp only [List.map_cons, List.map_nil, List.sum_cons, List.sum_nil, add_zero]
theorem duties_barQ_d2 : (rd (F := F) m).duties (barCell (2 : Dev nD)) 0 = {4, 0, 7, 5, 3, 1, 6} := by rw [duties_bar]; decide
theorem eraseQ_d3 (Φ : Dev nD → sProp 𝕄) : bigSep (Finset.univ.erase (3 : Dev nD)) Φ = iprop(Φ 5 ∗ Φ 1 ∗ Φ 6 ∗ Φ 4 ∗ Φ 2 ∗ Φ 0 ∗ Φ 7) := by
  rw [BI.bigSep_eq_bigSepL_of_eq [5, 1, 6, 4, 2, 0, 7] (by decide) (by decide)]; rfl
theorem sumQ_d3 (f : Dev nD → CellTallies nD τ sig Unit) : ∑ p ∈ Finset.univ.erase (3 : Dev nD), f p = f 5 + (f 1 + (f 6 + (f 4 + (f 2 + (f 0 + (f 7)))))) := by
  rw [show (Finset.univ.erase (3 : Dev nD)) = [5, 1, 6, 4, 2, 0, 7].toFinset by decide, List.sum_toFinset _ (by decide)]
  simp only [List.map_cons, List.map_nil, List.sum_cons, List.sum_nil, add_zero]
theorem duties_barQ_d3 : (rd (F := F) m).duties (barCell (3 : Dev nD)) 0 = {5, 1, 6, 4, 2, 0, 7} := by rw [duties_bar]; decide
theorem eraseQ_d4 (Φ : Dev nD → sProp 𝕄) : bigSep (Finset.univ.erase (4 : Dev nD)) Φ = iprop(Φ 2 ∗ Φ 6 ∗ Φ 1 ∗ Φ 3 ∗ Φ 5 ∗ Φ 7 ∗ Φ 0) := by
  rw [BI.bigSep_eq_bigSepL_of_eq [2, 6, 1, 3, 5, 7, 0] (by decide) (by decide)]; rfl
theorem sumQ_d4 (f : Dev nD → CellTallies nD τ sig Unit) : ∑ p ∈ Finset.univ.erase (4 : Dev nD), f p = f 2 + (f 6 + (f 1 + (f 3 + (f 5 + (f 7 + (f 0)))))) := by
  rw [show (Finset.univ.erase (4 : Dev nD)) = [2, 6, 1, 3, 5, 7, 0].toFinset by decide, List.sum_toFinset _ (by decide)]
  simp only [List.map_cons, List.map_nil, List.sum_cons, List.sum_nil, add_zero]
theorem duties_barQ_d4 : (rd (F := F) m).duties (barCell (4 : Dev nD)) 0 = {2, 6, 1, 3, 5, 7, 0} := by rw [duties_bar]; decide
theorem eraseQ_d5 (Φ : Dev nD → sProp 𝕄) : bigSep (Finset.univ.erase (5 : Dev nD)) Φ = iprop(Φ 3 ∗ Φ 7 ∗ Φ 0 ∗ Φ 2 ∗ Φ 4 ∗ Φ 6 ∗ Φ 1) := by
  rw [BI.bigSep_eq_bigSepL_of_eq [3, 7, 0, 2, 4, 6, 1] (by decide) (by decide)]; rfl
theorem sumQ_d5 (f : Dev nD → CellTallies nD τ sig Unit) : ∑ p ∈ Finset.univ.erase (5 : Dev nD), f p = f 3 + (f 7 + (f 0 + (f 2 + (f 4 + (f 6 + (f 1)))))) := by
  rw [show (Finset.univ.erase (5 : Dev nD)) = [3, 7, 0, 2, 4, 6, 1].toFinset by decide, List.sum_toFinset _ (by decide)]
  simp only [List.map_cons, List.map_nil, List.sum_cons, List.sum_nil, add_zero]
theorem duties_barQ_d5 : (rd (F := F) m).duties (barCell (5 : Dev nD)) 0 = {3, 7, 0, 2, 4, 6, 1} := by rw [duties_bar]; decide
theorem eraseQ_d6 (Φ : Dev nD → sProp 𝕄) : bigSep (Finset.univ.erase (6 : Dev nD)) Φ = iprop(Φ 0 ∗ Φ 4 ∗ Φ 3 ∗ Φ 1 ∗ Φ 7 ∗ Φ 5 ∗ Φ 2) := by
  rw [BI.bigSep_eq_bigSepL_of_eq [0, 4, 3, 1, 7, 5, 2] (by decide) (by decide)]; rfl
theorem sumQ_d6 (f : Dev nD → CellTallies nD τ sig Unit) : ∑ p ∈ Finset.univ.erase (6 : Dev nD), f p = f 0 + (f 4 + (f 3 + (f 1 + (f 7 + (f 5 + (f 2)))))) := by
  rw [show (Finset.univ.erase (6 : Dev nD)) = [0, 4, 3, 1, 7, 5, 2].toFinset by decide, List.sum_toFinset _ (by decide)]
  simp only [List.map_cons, List.map_nil, List.sum_cons, List.sum_nil, add_zero]
theorem duties_barQ_d6 : (rd (F := F) m).duties (barCell (6 : Dev nD)) 0 = {0, 4, 3, 1, 7, 5, 2} := by rw [duties_bar]; decide
theorem eraseQ_d7 (Φ : Dev nD → sProp 𝕄) : bigSep (Finset.univ.erase (7 : Dev nD)) Φ = iprop(Φ 1 ∗ Φ 5 ∗ Φ 2 ∗ Φ 0 ∗ Φ 6 ∗ Φ 4 ∗ Φ 3) := by
  rw [BI.bigSep_eq_bigSepL_of_eq [1, 5, 2, 0, 6, 4, 3] (by decide) (by decide)]; rfl
theorem sumQ_d7 (f : Dev nD → CellTallies nD τ sig Unit) : ∑ p ∈ Finset.univ.erase (7 : Dev nD), f p = f 1 + (f 5 + (f 2 + (f 0 + (f 6 + (f 4 + (f 3)))))) := by
  rw [show (Finset.univ.erase (7 : Dev nD)) = [1, 5, 2, 0, 6, 4, 3].toFinset by decide, List.sum_toFinset _ (by decide)]
  simp only [List.map_cons, List.map_nil, List.sum_cons, List.sum_nil, add_zero]
theorem duties_barQ_d7 : (rd (F := F) m).duties (barCell (7 : Dev nD)) 0 = {1, 5, 2, 0, 6, 4, 3} := by rw [duties_bar]; decide

attribute [local sl_rounds] duties_barQ_d0 duties_barQ_d1 duties_barQ_d2 duties_barQ_d3 duties_barQ_d4 duties_barQ_d5 duties_barQ_d6 duties_barQ_d7 amount_bar payload_bar_raw3 expect_bar
  duties_send duties_recv amount_send amount_recv expect_send expect_recv payload_send_raw payload_recv_raw

set_option maxHeartbeats 4000000 in
theorem run3 (c : Dev nD) : Run3 m ρ c := by
  intro arg1 harg1 arg2 harg2 x o a ha Kt
  unfold Φmid creds sendToks Dat.owesAt Pipeline.owesWithin owns
  rw [positions_split]
  have hmw := mayWait_bar (F := F) c
  rw [show (dats m ρ 0 c).owed t0_3.castSucc = sendO c (Finset.univ.erase c) from rfl]
  unfold sendO at hmw ⊢
  have hsplit := acc_split' (F := F) c (devSum m c)
  have hjoin := acc_join' (F := F) c (sumBuf m c)
  have hcom := com_join' (F := F) c (tableBuf m c)
  have hout := out_store (F := F) m arg2 (harg2.unread o) c (h1 := inb_S1x512_S1x512_0_0) (h2 := inb_S8x512_S8x512_0_0)
  iintro ⟨⟨⟨%K, #Hrec⟩, ⟨Hpb, ⟨Hpsc, Hpss⟩, ⟨Hprc, Hprs⟩⟩, Htoks, ⟨Hcb, Hcreds⟩, #Hlev, Hl, ⟨%fr, Hrow⟩⟩, ⟨%W, %hW, HO⟩, ⟨%f0, %hf0, H0⟩, ⟨%f1, %hf1, H1⟩, Hk⟩
  obtain rfl := harg1.eq_unread hf0; obtain rfl := harg2.eq_unread hf1
  have hsend := fun (q : Dev nD) (hq : q ≠ c) => @send_rec F _ m K c q hq
  have hown := own_row_done (F := F) m c fr
  have hcss := close_send_self (F := F) m K c
  have hcrs := close_recv_self (F := F) m K c
  have hcs := close_sends (F := F) m K c
  have hcr := close_recvs (F := F) m K c
  ihave ⟨#HIb, #HRb⟩ := (rec_bar3 m K c) $$ Hrec
  ihave ⟨#HIr0, #HRr0⟩ := (rec_recv3 m K c 0) $$ Hrec
  ihave ⟨#HIs0, #HRs0⟩ := (rec_send3 m K c 0) $$ Hrec
  ihave ⟨#HIr1, #HRr1⟩ := (rec_recv3 m K c 1) $$ Hrec
  ihave ⟨#HIs1, #HRs1⟩ := (rec_send3 m K c 1) $$ Hrec
  ihave ⟨#HIr2, #HRr2⟩ := (rec_recv3 m K c 2) $$ Hrec
  ihave ⟨#HIs2, #HRs2⟩ := (rec_send3 m K c 2) $$ Hrec
  ihave ⟨#HIr3, #HRr3⟩ := (rec_recv3 m K c 3) $$ Hrec
  ihave ⟨#HIs3, #HRs3⟩ := (rec_send3 m K c 3) $$ Hrec
  ihave ⟨#HIr4, #HRr4⟩ := (rec_recv3 m K c 4) $$ Hrec
  ihave ⟨#HIs4, #HRs4⟩ := (rec_send3 m K c 4) $$ Hrec
  ihave ⟨#HIr5, #HRr5⟩ := (rec_recv3 m K c 5) $$ Hrec
  ihave ⟨#HIs5, #HRs5⟩ := (rec_send3 m K c 5) $$ Hrec
  ihave ⟨#HIr6, #HRr6⟩ := (rec_recv3 m K c 6) $$ Hrec
  ihave ⟨#HIs6, #HRs6⟩ := (rec_send3 m K c 6) $$ Hrec
  ihave ⟨#HIr7, #HRr7⟩ := (rec_recv3 m K c 7) $$ Hrec
  ihave ⟨#HIs7, #HRs7⟩ := (rec_send3 m K c 7) $$ Hrec
  have h8 : ∀ d : Dev nD, d = 0 ∨ d = 1 ∨ d = 2 ∨ d = 3 ∨ d = 4 ∨ d = 5 ∨ d = 6 ∨ d = 7 := by decide
  rcases h8 c with rfl | rfl | rfl | rfl | rfl | rfl | rfl | rfl
  all_goals
    simp only [eraseQ_d0, eraseQ_d1, eraseQ_d2, eraseQ_d3, eraseQ_d4, eraseQ_d5, eraseQ_d6, eraseQ_d7, sumQ_d0, sumQ_d1, sumQ_d2, sumQ_d3, sumQ_d4, sumQ_d5, sumQ_d6, sumQ_d7] at hmw hsplit hjoin hcom hcs hcr ⊢
    icases Htoks with ⟨⟨Htr1, Hts1⟩, ⟨Htr2, Hts2⟩, ⟨Htr3, Hts3⟩, ⟨Htr4, Hts4⟩, ⟨Htr5, Hts5⟩, ⟨Htr6, Hts6⟩, ⟨Htr7, Hts7⟩⟩
    icases Hcreds with ⟨Hc1, Hc2, Hc3, Hc4, Hc5, Hc6, Hc7⟩
    icases Hpss with ⟨Hps1, Hps2, Hps3, Hps4, Hps5, Hps6, Hps7⟩
    icases Hprs with ⟨Hpr1, Hpr2, Hpr3, Hpr4, Hpr5, Hpr6, Hpr7⟩
    ihave #Hmw := hmw $$ Hlev
    unfold bodyOn
    simp only [cc0_body_eq_skeleton]; unfold cc0_body_skel
    unfold locPts at hsplit hjoin ⊢
    unfold rowPts at hcom ⊢
    unfold comPts at hcom
    sl_exec (disch := first | decide)
    sl_unfold_words
    rw [acc_store (F := F) arg1 harg1 x a, ha]
    ihave ⟨Hlr, Htc, Ht1, Ht2, Ht3, Ht4, Ht5, Ht6, Ht7⟩ := hsplit $$ Hl
    ihave ⟨⟨⟨%g1, Hd1⟩, -⟩, ⟨⟨%g2, Hd2⟩, -⟩, ⟨⟨%g3, Hd3⟩, -⟩, ⟨⟨%g4, Hd4⟩, -⟩, ⟨⟨%g5, Hd5⟩, -⟩, ⟨⟨%g6, Hd6⟩, -⟩, ⟨⟨%g7, Hd7⟩, -⟩⟩ := (sep7 _ _ _ _ _ _ _) $$ Hpb_pay1
    iapply (hsend _ (by decide) g1 _ (add_comm _ _)) $$ [Ht1 Hd1 HO Hts1 Htr1]
    · isplitr; · iexact Hrec
      isplitl [Ht1]; · iexact Ht1
      isplitl [Hd1]; · iexact Hd1
      isplitl [HO]; · iexact HO
      isplitl [Hts1]; · iexact Hts1
      iexact Htr1
    iintro ⟨Hcs1, HO⟩
    sl_exec (disch := first | decide)
    iapply (hsend _ (by decide) g2 _ (add_comm _ _)) $$ [Ht2 Hd2 HO Hts2 Htr2]
    · isplitr; · iexact Hrec
      isplitl [Ht2]; · iexact Ht2
      isplitl [Hd2]; · iexact Hd2
      isplitl [HO]; · iexact HO
      isplitl [Hts2]; · iexact Hts2
      iexact Htr2
    iintro ⟨Hcs2, HO⟩
    sl_exec (disch := first | decide)
    iapply (hsend _ (by decide) g3 _ (add_comm _ _)) $$ [Ht3 Hd3 HO Hts3 Htr3]
    · isplitr; · iexact Hrec
      isplitl [Ht3]; · iexact Ht3
      isplitl [Hd3]; · iexact Hd3
      isplitl [HO]; · iexact HO
      isplitl [Hts3]; · iexact Hts3
      iexact Htr3
    iintro ⟨Hcs3, HO⟩
    sl_exec (disch := first | decide)
    iapply (hsend _ (by decide) g4 _ (add_comm _ _)) $$ [Ht4 Hd4 HO Hts4 Htr4]
    · isplitr; · iexact Hrec
      isplitl [Ht4]; · iexact Ht4
      isplitl [Hd4]; · iexact Hd4
      isplitl [HO]; · iexact HO
      isplitl [Hts4]; · iexact Hts4
      iexact Htr4
    iintro ⟨Hcs4, HO⟩
    sl_exec (disch := first | decide)
    iapply (hsend _ (by decide) g5 _ (add_comm _ _)) $$ [Ht5 Hd5 HO Hts5 Htr5]
    · isplitr; · iexact Hrec
      isplitl [Ht5]; · iexact Ht5
      isplitl [Hd5]; · iexact Hd5
      isplitl [HO]; · iexact HO
      isplitl [Hts5]; · iexact Hts5
      iexact Htr5
    iintro ⟨Hcs5, HO⟩
    sl_exec (disch := first | decide)
    iapply (hsend _ (by decide) g6 _ (add_comm _ _)) $$ [Ht6 Hd6 HO Hts6 Htr6]
    · isplitr; · iexact Hrec
      isplitl [Ht6]; · iexact Ht6
      isplitl [Hd6]; · iexact Hd6
      isplitl [HO]; · iexact HO
      isplitl [Hts6]; · iexact Hts6
      iexact Htr6
    iintro ⟨Hcs6, HO⟩
    sl_exec (disch := first | decide)
    iapply (hsend _ (by decide) g7 0 (zero_add _).symm) $$ [Ht7 Hd7 HO Hts7 Htr7]
    · isplitr; · iexact Hrec
      isplitl [Ht7]; · iexact Ht7
      isplitl [Hd7]; · iexact Hd7
      isplitl [HO]; · iexact HO
      isplitl [Hts7]; · iexact Hts7
      iexact Htr7
    iintro ⟨Hcs7, HO⟩
    sl_exec (disch := first | decide)
    sl_unfold_words
    ihave Hrow := hown $$ [Hrow]
    · iexact Hrow
    ihave Hcom := hcom $$ [Hrow Hpr1_pay1 Hpr2_pay1 Hpr3_pay1 Hpr4_pay1 Hpr5_pay1 Hpr6_pay1 Hpr7_pay1]
    · iframe
    sl_exec (disch := first | decide)
    imod hcs $$ [Hps1 Hps2 Hps3 Hps4 Hps5 Hps6 Hps7] with ⟨Hvs1, Hvs2, Hvs3, Hvs4, Hvs5, Hvs6, Hvs7⟩
    · isplitr; · iexact Hrec
      iframe
    imod hcss $$ Hrec Hpsc with Hvsc
    imod hcr $$ [Hpr1 Hpr2 Hpr3 Hpr4 Hpr5 Hpr6 Hpr7] with ⟨Hvr1, Hvr2, Hvr3, Hvr4, Hvr5, Hvr6, Hvr7⟩
    · isplitr; · iexact Hrec
      iframe
    imod hcrs $$ Hrec Hprc with Hvrc
    ihave Hl := hjoin $$ [Hlr Htc Hps1_pay1 Hps2_pay1 Hps3_pay1 Hps4_pay1 Hps5_pay1 Hps6_pay1 Hps7_pay1]
    · unfold sumBuf; iframe
    sl_step
    iapply Hk
    unfold Φ₄ locPts comPts
    rw [ownSems0_eq3]
    isplitr [HO H0 H1]; · iframe
    isplitl [HO]
    · iexists _; isplitr
      rotate_left
      · iexact HO
      · ipureintro; exact fun _ _ => Or.inl trivial
    isplitl [H0]
    · iexists _; isplitr; · (ipureintro; exact harg1.read_unread _)
      iexact H0
    iexists _; isplitr
    rotate_left
    · iexact H1
    · ipureintro; exact hout

end Cert.KernelIdeal.Hand
end
-- ==== Proof.Run.lean ====
import proofs.«901074_g7700000000001075_dist_sum_ax0_shard0_i_m1024_n512_v7x_i8_f32_1_alg».proof.Proof.Body
import proofs.«901074_g7700000000001075_dist_sum_ax0_shard0_i_m1024_n512_v7x_i8_f32_1_alg».proof.Proof.Body0
import proofs.«901074_g7700000000001075_dist_sum_ax0_shard0_i_m1024_n512_v7x_i8_f32_1_alg».proof.Proof.Body3
import proofs.«901074_g7700000000001075_dist_sum_ax0_shard0_i_m1024_n512_v7x_i8_f32_1_alg».proof.Proof.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem run_main : θ_run (defs (F := F)) (onTc (τ := τ) (main (F := F))) ⟨m, fun _ => 0, ρ⟩ (RunPost m) :=
  run_of_body m ρ fun c => body_obligation_of m ρ c
    (run0 m ρ c)
    (run3 m ρ c)

end Cert.KernelIdeal.Hand

end
-- ==== Proof.Bits.Spec.lean ====
import proofs.«901074_g7700000000001075_dist_sum_ax0_shard0_i_m1024_n512_v7x_i8_f32_1_alg».proof.Proof.Gen.Kernel.Skeleton
import proofs.«901074_g7700000000001075_dist_sum_ax0_shard0_i_m1024_n512_v7x_i8_f32_1_alg».proof.Proof.Gen.Kernel.Frame
import Idealize.ShloMosaic.Lib.ValueIdx

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

def xblk (c : Dev nD) (t : Fin cfg0.N) : Vec F S256x512 .f32 := Gen.iblk m c 0 t

def accN (c : Dev nD) : (t : ℕ) → t < 4 → Vec F S1x512 .f32
  | 0, _ => k0_pay2 (xblk m c t0_0)
  | t + 1, h => k0_pay3 (xblk m c ⟨t + 1, by rw [show cfg0.N = 4 from N_0]; exact h⟩) (accN c t (by omega))

def devSum (c : Dev nD) : Vec F S1x512 .f32 := accN m c 3 (by decide)

def table : Vec F S8x512 .f32 := fun idx => devSum m ⟨(idx 0).val, (idx 0).isLt⟩ (ValueIdx.ix2 (0 : Fin 1) (idx 1))

def total : Vec F S1x512 .f32 := k0_pay5 (table m)

def totalBuf (c : Dev nD) : Buf (Elt F) ((c.tc : Thread nD τ).loc main_v1) := total m

def RunPost (r : PUnit × MemSt nD τ sig (Elt F)) : Prop := ∀ c : Dev nD,
  r.2.mem ((c.tc : Thread nD τ).loc main_v1) = totalBuf m c
    ∧ r.2.mem ((c.tc : Thread nD τ).loc main_arg0) = m ((c.tc : Thread nD τ).loc main_arg0)

end Cert.Kernel.Hand

end
-- ==== Proof.Bits.Sched.lean ====
import proofs.«901074_g7700000000001075_dist_sum_ax0_shard0_i_m1024_n512_v7x_i8_f32_1_alg».proof.Proof.Bits.Spec
import proofs.«901074_g7700000000001075_dist_sum_ax0_shard0_i_m1024_n512_v7x_i8_f32_1_alg».proof.Proof.Gen.Kernel.Launch
import proofs.«901074_g7700000000001075_dist_sum_ax0_shard0_i_m1024_n512_v7x_i8_f32_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev locM : Memref sig .tc .vmem S1x512 .f32 := Memref.whole cc0_scratch0
abbrev comM : Memref sig .tc .vmem S8x512 .f32 := Memref.whole cc0_scratch1

theorem row_inb (q : Dev nD) : ∀ a, (![q.val, 0] : Fin 2 → Nat) a + S1x512.size a ≤ S8x512.size a := by revert q; decide
theorem sem_inb (q : Dev nD) : ∀ a, (![q.val] : Fin 1 → Nat) a + S1.size a ≤ S8.size a := by revert q; decide

abbrev rowM (q : Dev nD) : Memref sig .tc .vmem S1x512 .f32 :=
  comM.slice (Rect.unit (s := S8x512) ![q.val, 0] S1x512.size (row_inb q)) (fun _ => rfl)

abbrev barS : Sem sig := (SemArray.scalar (sig.barrier 0 rfl) : Sems sig S_).sem
abbrev sendSem (q : Dev nD) : DmaSem sig := ((cc0_scratch2.slice (Rect.unit (s := S8) ![q.val] S1.size (sem_inb q))).squeeze S_ squeezes_S1_S_).sem
abbrev recvSem (q : Dev nD) : DmaSem sig := ((cc0_scratch3.slice (Rect.unit (s := S8) ![q.val] S1.size (sem_inb q))).squeeze S_ squeezes_S1_S_).sem

theorem sendSem_val (q : Dev nD) : (sendSem q).val = 3 + q.val := by revert q; decide
theorem recvSem_val (q : Dev nD) : (recvSem q).val = 11 + q.val := by revert q; decide

abbrev barCell (c : Dev nD) : GSem nD τ sig := ((c : Thread nD τ), .reg barS)
abbrev sendCell (c q : Dev nD) : GSem nD τ sig := ((c : Thread nD τ), .dma (sendSem q))
abbrev recvCell (c q : Dev nD) : GSem nD τ sig := ((c : Thread nD τ), .dma (recvSem q))

abbrev N : ℕ := (locM : Memref sig .tc .vmem S1x512 .f32).view.dmaCredit
theorem N_pos : 0 < N := View.dmaCredit_pos _ (by decide)

def sumBuf (c : Dev nD) : Buf (Elt F) ((locM : Memref sig .tc .vmem S1x512 .f32).view.loc (c : Thread nD τ)) := devSum m c

def tableBuf (c : Dev nD) : Buf (Elt F) ((comM : Memref sig .tc .vmem S8x512 .f32).view.loc (c : Thread nD τ)) := table m

def locPts (c : Dev nD) (q : PosShare TreeShare) (f : Buf (Elt F) ((locM : Memref sig .tc .vmem S1x512 .f32).view.loc (c : Thread nD τ))) : sProp 𝕄 :=
  (locM : Memref sig .tc .vmem S1x512 .f32).view.loc (c : Thread nD τ) ↦[(locM : Memref sig .tc .vmem S1x512 .f32).view.set]{q} f

def rowPts (c r : Dev nD) (f : Buf (Elt F) ((rowM r).view.loc (c : Thread nD τ))) : sProp 𝕄 :=
  (rowM r).view.loc (c : Thread nD τ) ↦[(rowM r).view.set]{fullShare} f

def comPts (c : Dev nD) (f : Buf (Elt F) ((comM : Memref sig .tc .vmem S8x512 .f32).view.loc (c : Thread nD τ))) : sProp 𝕄 :=
  (comM : Memref sig .tc .vmem S8x512 .f32).view.loc (c : Thread nD τ) ↦[(comM : Memref sig .tc .vmem S8x512 .f32).view.set]{fullShare} f

omit [FloatOps F] in
instance locPts_storable (c : Dev nD) (q f) : BI.Storable (upEmb : UEmb _ 𝕄) (locPts (F := F) c q f) := by unfold locPts; infer_instance
omit [FloatOps F] in
instance rowPts_storable (c r : Dev nD) (f) : BI.Storable (upEmb : UEmb _ 𝕄) (rowPts (F := F) c r f) := by unfold rowPts; infer_instance

abbrev tokShare (p : Dev nD) : PosShare TreeShare := Transfers.shareTok fullShare 8 p

abbrev restShare : PosShare TreeShare := Transfers.shareDrop fullShare 8

def barPay (c p : Dev nD) : sProp 𝕄 := iprop((∃ f, rowPts p c f) ∗ reached ER (recvCell p c) 0)
def recvPay (c q : Dev nD) : sProp 𝕄 := rowPts c q (tableBuf m c)
def sendPay (c q : Dev nD) : sProp 𝕄 := locPts c (tokShare q) (sumBuf m c)

def semPeer (s : DmaSem sig) : Dev nD := ⟨(s.val + 5) % 8, Nat.mod_lt _ (by decide)⟩

theorem semPeer_send (q : Dev nD) : semPeer (sendSem q) = q := by revert q; decide
theorem semPeer_recv (q : Dev nD) : semPeer (recvSem q) = q := by revert q; decide

def rd : Rounds.Schedule (GSem nD τ sig) (Dev nD) 𝕄 where
  duties g r :=
    if r = 0 ∧ g.1.2 = .tc then
      match g.2 with
      | .reg _ => Finset.univ.erase g.1.1
      | .dma s => if 3 ≤ s.val ∧ semPeer s ≠ g.1.1 then {semPeer s} else ∅
    else ∅
  unitless _ := False
  amount g _ _ := match g.2 with | .reg _ => 1 | .dma _ => N
  payload g _ d := match g.2 with
    | .reg _ => barPay g.1.1 d
    | .dma s => if s.val < 11 then sendPay m g.1.1 (semPeer s) else recvPay m g.1.1 (semPeer s)
  amount_pos g _ _ _ := by
    cases g.2 with
    | reg _ => exact Nat.one_pos
    | dma _ => exact N_pos

instance rd_payload_storable (g : GSem nD τ sig) (r : ℕ) (d : Dev nD) :
    BI.Storable (upEmb : UEmb _ 𝕄) ((rd (F := F) m).payload g r d) := by
  show BI.Storable upEmb (match g.2 with
    | .reg _ => barPay g.1.1 d
    | .dma s => if s.val < 11 then sendPay m g.1.1 (semPeer s) else recvPay m g.1.1 (semPeer s))
  unfold barPay recvPay sendPay
  (repeat' split) <;> infer_instance

section Tables
variable (c q : Dev nD)

theorem duties_bar : (rd (F := F) m).duties (barCell c) 0 = Finset.univ.erase c := by
  dsimp only [rd]; rw [if_pos ⟨rfl, rfl⟩]
theorem duties_send (h : q ≠ c) : (rd (F := F) m).duties (sendCell c q) 0 = {q} := by
  dsimp only [rd]; rw [if_pos ⟨rfl, rfl⟩, semPeer_send, if_pos ⟨by rw [sendSem_val]; omega, h⟩]
theorem duties_recv (h : q ≠ c) : (rd (F := F) m).duties (recvCell c q) 0 = {q} := by
  dsimp only [rd]; rw [if_pos ⟨rfl, rfl⟩, semPeer_recv, if_pos ⟨by rw [recvSem_val]; omega, h⟩]
theorem duties_send_self (r : ℕ) : (rd (F := F) m).duties (sendCell c c) r = ∅ := by
  dsimp only [rd]; split
  · rw [semPeer_send, if_neg (fun h => h.2 rfl)]
  · rfl
theorem duties_recv_self (r : ℕ) : (rd (F := F) m).duties (recvCell c c) r = ∅ := by
  dsimp only [rd]; split
  · rw [semPeer_recv, if_neg (fun h => h.2 rfl)]
  · rfl
theorem duties_later (g : GSem nD τ sig) : ∀ r, 1 ≤ r → (rd (F := F) m).duties g r = ∅ :=
  fun r hr => by dsimp only [rd]; rw [if_neg fun h => by omega]

theorem amount_bar (d : Dev nD) : (rd (F := F) m).amount (barCell c) 0 d = 1 := rfl
theorem amount_send (d : Dev nD) : (rd (F := F) m).amount (sendCell c q) 0 d = N := rfl
theorem amount_recv (d : Dev nD) : (rd (F := F) m).amount (recvCell c q) 0 d = N := rfl

theorem expect_bar : (rd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (h : q ≠ c) : (rd (F := F) m).expect (sendCell c q) 0 = N := by
  unfold Schedule.expect Schedule.amountOf; rw [duties_send m c q h, Finset.sum_singleton, amount_send]
theorem expect_recv (h : q ≠ c) : (rd (F := F) m).expect (recvCell c q) 0 = N := by
  unfold Schedule.expect Schedule.amountOf; rw [duties_recv m c q h, Finset.sum_singleton, amount_recv]

theorem payload_bar (d : Dev nD) : (rd (F := F) m).payload (barCell c) 0 d = barPay c d := rfl
theorem payload_send (d : Dev nD) : (rd (F := F) m).payload (sendCell c q) 0 d = sendPay m c q := by
  dsimp only [rd]; rw [if_pos (by rw [sendSem_val]; have : q.val < 8 := q.isLt; omega), semPeer_send]
theorem payload_recv (d : Dev nD) : (rd (F := F) m).payload (recvCell c q) 0 d = recvPay m c q := by
  dsimp only [rd]; rw [if_neg (by rw [recvSem_val]; omega), semPeer_recv]

end Tables

def sigO (S : Finset (Dev nD)) : CellTallies nD τ sig Unit := ∑ p ∈ S, tallyAt (barCell p) () 1

def sendO (c : Dev nD) (S : Finset (Dev nD)) : CellTallies nD τ sig Unit := ∑ p ∈ S, tallyAt (recvCell p c) () N
def O₀ (c : Dev nD) : CellTallies nD τ sig Unit := sendO c (Finset.univ.erase c) + sigO (Finset.univ.erase c)

def L (g : GSem nD τ sig) : Finset Unit := if g.1.2 = .tc then {()} else ∅

def lv (g : GSem nD τ sig) (_ : Unit) : ℕ := match g.2 with | .reg _ => 1 | .dma s => if 11 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

inductive CK where
  | bar
  | send (q : Dev nD)
  | recv (q : Dev nD)
  deriving DecidableEq, Fintype

def csem : CK → SemLoc sig
  | .bar => .reg barS
  | .send q => .dma (sendSem q)
  | .recv q => .dma (recvSem q)
abbrev kcell (ck : Dev nD × CK) : GSem nD τ sig := ((ck.1 : Thread nD τ), csem ck.2)

abbrev osem : Fin 2 × Dev nD → SemLoc sig := fun x => match x.1 with | 0 => .dma (sendSem x.2) | 1 => .dma (recvSem x.2)

def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records (F := F) m K) := by unfold records; infer_instance

def positions (c : Dev nD) : sProp 𝕄 := bigSep Finset.univ fun k : CK => atPos ER (kcell (c, k)) 0 ∅ 0

def sigToks (c : Dev nD) : sProp 𝕄 := bigSep (Finset.univ.erase c) fun p => dutyTok ER (barCell p) 0 c

def sendToks (c : Dev nD) : sProp 𝕄 := bigSep (Finset.univ.erase c) fun p => iprop(dutyTok ER (recvCell p c) 0 c ∗ dutyTok ER (sendCell c p) 0 p)

def creds (c : Dev nD) : sProp 𝕄 :=
  iprop(cred (tallyAt (barCell c) () 7) ∗ bigSep (Finset.univ.erase c) fun q => cred (tallyAt (recvCell c q) () N))

def ghost (K : Dev nD × CK → ℕ) (c : Dev nD) : sProp 𝕄 := iprop(records m K ∗ positions c ∗ sigToks c ∗ sendToks c)
def start (c : Dev nD) : sProp 𝕄 := iprop((∃ K, ghost m K c) ∗ creds c ∗ levAts L lv)

def Φ₀ (c : Dev nD) : sProp 𝕄 := iprop(start m c ∗ (∃ f, locPts c fullShare f) ∗ (∃ f, comPts c f))

def Φmid (c : Dev nD) (a : Vec F S1x512 .f32) : sProp 𝕄 :=
  iprop((∃ K, records m K) ∗ positions c ∗ sendToks c ∗ creds c ∗ levAts L lv ∗ locPts c fullShare a ∗ (∃ f, rowPts c c f))

def Φ₄ (c : Dev nD) : sProp 𝕄 :=
  iprop(locPts c fullShare (sumBuf m c) ∗ comPts c (tableBuf m c) ∗ Pipeline.ownSems0 osem c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => total m
  Φ t := match t with
    | ⟨0, _⟩ => Φ₀ m c
    | ⟨1, _⟩ => Φmid m c (accN m c 0 (by decide))
    | ⟨2, _⟩ => Φmid m c (accN m c 1 (by decide))
    | ⟨3, _⟩ => Φmid m c (accN m c 2 (by decide))
    | ⟨_ + 4, _⟩ => Φ₄ m c
  q _ := fullShare
  owed t := match t with
    | ⟨0, _⟩ => O₀ c
    | ⟨1, _⟩ => sendO c (Finset.univ.erase c)
    | ⟨2, _⟩ => sendO c (Finset.univ.erase c)
    | ⟨3, _⟩ => sendO c (Finset.univ.erase c)
    | ⟨_ + 4, _⟩ => 0

abbrev 𝒱₀ : Variants := Variants.none

end Cert.Kernel.Hand

end
-- ==== Proof.Bits.BodyLocal.lean ====
import proofs.«901074_g7700000000001075_dist_sum_ax0_shard0_i_m1024_n512_v7x_i8_f32_1_alg».proof.Proof.Bits.Sched
import Idealize.ShloMosaic.Lib.Pipeline.Value

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem hz2 : (![0, 0] : Fin 2 → Nat) = fun _ => 0 := funext fun a => by fin_cases a <;> rfl

abbrev bodyOn (i : grid0.Coords) (arg1 : Memref sig .tc .vmem S256x512 .f32) (harg1 : arg1.IsWhole) (arg2 : Memref sig .tc .vmem S1x512 .f32) (harg2 : arg2.IsWhole) :
    Prog (TpuEff nD τ sig (Elt F) Λ₀ .tc) PUnit :=
  cc0_body i arg1 harg1 arg2 harg2 (Memref.whole cc0_scratch0) (Memref.isWhole_whole _) (Memref.whole cc0_scratch1) (Memref.isWhole_whole _) cc0_scratch2 cc0_scratch3

set_option maxHeartbeats 1000000 in
theorem run_mid (c : Dev nD) (t : Fin cfg0.N) (ht : t = t0_1 ∨ t = t0_2)
    (arg1 : Memref sig .tc .vmem S256x512 .f32) (harg1 : arg1.IsWhole) (arg2 : Memref sig .tc .vmem S1x512 .f32) (harg2 : arg2.IsWhole)
    (x : Vec F S256x512 .f32) (a : Vec F S1x512 .f32) (o : Vec F S1x512 .f32) (Kt : PUnit → sProp 𝕄) :
    iprop(owns (c : Thread nD τ) arg1 fullShare x ∗ owns (c : Thread nD τ) arg2 fullShare o ∗ locPts c fullShare a
        ∗ (iprop(owns (c : Thread nD τ) arg1 fullShare x ∗ owns (c : Thread nD τ) arg2 fullShare o ∗ locPts c fullShare (k0_pay3 x a)) -∗ Kt ⟨⟩))
      ⊢ wp frame (wpE (defs₀ (F := F)) 𝒱₀ c none) Set.univ (bodyOn (F := F) (grid0.coords t) arg1 harg1 arg2 harg2) Kt := by
  unfold bodyOn
  simp only [cc0_body_eq_skeleton]; unfold cc0_body_skel
  unfold owns locPts
  iintro ⟨⟨%f0, %hf0, H0⟩, ⟨%f1, %hf1, H1⟩, Hl, Hk⟩
  obtain rfl := harg1.eq_unread hf0; obtain rfl := harg2.eq_unread hf1
  rcases ht with rfl | rfl
  all_goals
    sl_exec (disch := first | decide)
    sl_step
    iapply Hk
    isplitl [H0]
    · iexists _; isplitr; · (ipureintro; exact harg1.read_unread _)
      iexact H0
    isplitl [H1]
    · iexists _; isplitr; · (ipureintro; exact harg2.read_unread _)
      iexact H1
    sl_unfold_words
    rw [View.writes_singleton]
    simp only [View.readAt_eq_ld, harg1.read_unread, View.ld_unit_zero (S := S256x512) hz2, View.ld_unit_zero (S := S1x512) hz2]
    rw [View.read_whole]
    rw [show View.write (Elt F) ((View.whole cc0_scratch0).slice (Rect.unit ![0, 0] ![1, 512] inb_S1x512_S1x512_0_0)) a (k0_pay3 x a) Finset.univ = k0_pay3 x a from
      Memref.write_access_unit_zero_univ (Elt F) cc0_scratch0 hz2 _ a _]
    iexact Hl

omit [FloatOps F] in
theorem sep7 (A1 A2 A3 A4 A5 A6 A7 : sProp 𝕄) :
    BI.sep A1 (BI.sep A2 (BI.sep A3 (BI.sep A4 (BI.sep A5 (BI.sep A6 A7))))) ⊢ iprop(A1 ∗ A2 ∗ A3 ∗ A4 ∗ A5 ∗ A6 ∗ A7) := .rfl

def Run0 (c : Dev nD) : Prop :=
  ∀ (arg1 : Memref sig .tc .vmem S256x512 .f32) (harg1 : arg1.IsWhole) (arg2 : Memref sig .tc .vmem S1x512 .f32) (harg2 : arg2.IsWhole)
    (x : Vec F S256x512 .f32) (o : Vec F S1x512 .f32) (Kt : PUnit → sProp 𝕄),
    iprop(Φ₀ m c ∗ (dats m ρ 0 c).owesAt () t0_0.castSucc ∗ owns (c : Thread nD τ) arg1 fullShare x ∗ owns (c : Thread nD τ) arg2 fullShare o
        ∗ (iprop(Φmid m c (k0_pay2 x) ∗ (dats m ρ 0 c).owesAt () t0_0.succ ∗ owns (c : Thread nD τ) arg1 fullShare x ∗ owns (c : Thread nD τ) arg2 fullShare o) -∗ Kt ⟨⟩))
      ⊢ wp frame (wpE (defs₀ (F := F)) 𝒱₀ c none) Set.univ (bodyOn (F := F) (grid0.coords t0_0) arg1 harg1 arg2 harg2) Kt

def Run3 (c : Dev nD) : Prop :=
  ∀ (arg1 : Memref sig .tc .vmem S256x512 .f32) (harg1 : arg1.IsWhole) (arg2 : Memref sig .tc .vmem S1x512 .f32) (harg2 : arg2.IsWhole)
    (x : Vec F S256x512 .f32) (o : Vec F S1x512 .f32) (a : Vec F S1x512 .f32) (ha : k0_pay3 x a = devSum m c) (Kt : PUnit → sProp 𝕄),
    iprop(Φmid m c a ∗ (dats m ρ 0 c).owesAt () t0_3.castSucc ∗ owns (c : Thread nD τ) arg1 fullShare x ∗ owns (c : Thread nD τ) arg2 fullShare o
        ∗ (iprop(Φ₄ m c ∗ (dats m ρ 0 c).owesAt () t0_3.succ ∗ owns (c : Thread nD τ) arg1 fullShare x ∗ owns (c : Thread nD τ) arg2 fullShare (total m)) -∗ Kt ⟨⟩))
      ⊢ wp frame (wpE (defs₀ (F := F)) 𝒱₀ c none) Set.univ (bodyOn (F := F) (grid0.coords t0_3) arg1 harg1 arg2 harg2) Kt

end Cert.Kernel.Hand
end
-- ==== Proof.Bits.Body.lean ====
import proofs.«901074_g7700000000001075_dist_sum_ax0_shard0_i_m1024_n512_v7x_i8_f32_1_alg».proof.Proof.Bits.BodyLocal

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem before0 (c : Dev nD) (t : Fin cfg0.N) (d) : (dats m ρ 0 c).before 0 t d = xblk m c t :=
  ((dats m ρ 0 c).before_in_eq_fetched 0 rfl (fun _ => rfl) (fun _ _ _ => rfl)
      (fun t => by show xblk m c t = _; unfold xblk Dat.blockOf iblk; rfl) t d).trans
    (by unfold Dat.fetched Dat.blockOf xblk iblk; rfl)

theorem body_obligation_of (c : Dev nD) (h0 : Run0 m ρ c) (h3 : Run3 m ρ c) :
    BodyObligation (dats (F := F) m ρ 0 c) (defs₀ (F := F)) 𝒱₀ () Set.univ := fun t => by
  rcases fin_N0 t with rfl | rfl | rfl | rfl
  · rw [bigSep_W0, bigSep_W0]
    show iprop(Φ₀ m c ∗ (dats m ρ 0 c).owesAt () t0_0.castSucc
        ∗ (∃ d, owns (c : Thread nD τ) (st0_0 t0_0) fullShare ((dats m ρ 0 c).before 0 t0_0 d))
        ∗ (∃ d, owns (c : Thread nD τ) (st0_1 t0_0) fullShare ((dats m ρ 0 c).before 1 t0_0 d)))
      ⊢ wp frame (wpE (defs₀ (F := F)) 𝒱₀ c none) Set.univ
          (bodyOn (F := F) (grid0.coords t0_0) (st0_0 t0_0) (hstage0_0 ((cfg0.slots t0_0 0).cast nbuf0_0)) (st0_1 t0_0) (hstage0_1 ((cfg0.slots t0_0 1).cast nbuf0_1)))
          (fun _ => iprop(Φmid m c (k0_pay2 (xblk m c t0_0)) ∗ (dats m ρ 0 c).owesAt () t0_0.succ
            ∗ owns (c : Thread nD τ) (st0_0 t0_0) fullShare (xblk m c t0_0)
            ∗ (∃ d, owns (c : Thread nD τ) (st0_1 t0_0) fullShare ((dats m ρ 0 c).before 1 t0_0 d))))
    iintro ⟨HΦ, Ho, ⟨%d0, H0⟩, ⟨%d1, H1⟩⟩
    rw [before0]
    iapply (h0 _ _ _ _ (xblk m c t0_0) _ _)
    isplitl [HΦ]; · iexact HΦ
    isplitl [Ho]; · iexact Ho
    isplitl [H0]; · iexact H0
    isplitl [H1]; · iexact H1
    iintro ⟨HΦ, Ho, H0, H1⟩
    isplitl [HΦ]; · iexact HΦ
    isplitl [Ho]; · iexact Ho
    isplitl [H0]; · iexact H0
    iexists d1; iexact H1
  · rw [bigSep_W0, bigSep_W0]
    show iprop(Φmid m c (accN m c 0 (by decide)) ∗ (dats m ρ 0 c).owesAt () t0_1.castSucc
        ∗ (∃ d, owns (c : Thread nD τ) (st0_0 t0_1) fullShare ((dats m ρ 0 c).before 0 t0_1 d))
        ∗ (∃ d, owns (c : Thread nD τ) (st0_1 t0_1) fullShare ((dats m ρ 0 c).before 1 t0_1 d)))
      ⊢ wp frame (wpE (defs₀ (F := F)) 𝒱₀ c none) Set.univ
          (bodyOn (F := F) (grid0.coords t0_1) (st0_0 t0_1) (hstage0_0 ((cfg0.slots t0_1 0).cast nbuf0_0)) (st0_1 t0_1) (hstage0_1 ((cfg0.slots t0_1 1).cast nbuf0_1)))
          (fun _ => iprop(Φmid m c (k0_pay3 (xblk m c t0_1) (accN m c 0 (by decide))) ∗ (dats m ρ 0 c).owesAt () t0_1.succ
            ∗ owns (c : Thread nD τ) (st0_0 t0_1) fullShare (xblk m c t0_1)
            ∗ (∃ d, owns (c : Thread nD τ) (st0_1 t0_1) fullShare ((dats m ρ 0 c).before 1 t0_1 d))))
    iintro ⟨HΦ, Ho, ⟨%d0, H0⟩, ⟨%d1, H1⟩⟩
    rw [before0]
    unfold Φmid
    icases HΦ with ⟨HK, Hpos, Htoks, Hcr, Hlev, Hl, Hrow⟩
    iapply (run_mid c t0_1 (.inl rfl) _ _ _ _ (xblk m c t0_1) _ _ _)
    isplitl [H0]; · iexact H0
    isplitl [H1]; · iexact H1
    isplitl [Hl]; · iexact Hl
    iintro ⟨H0, H1, Hl⟩
    isplitl [HK Hpos Htoks Hcr Hlev Hl Hrow]
    · isplitl [HK]; · iexact HK
      isplitl [Hpos]; · iexact Hpos
      isplitl [Htoks]; · iexact Htoks
      isplitl [Hcr]; · iexact Hcr
      isplitl [Hlev]; · iexact Hlev
      isplitl [Hl]; · iexact Hl
      iexact Hrow
    isplitl [Ho]; · iexact Ho
    isplitl [H0]; · iexact H0
    iexists d1; iexact H1
  · rw [bigSep_W0, bigSep_W0]
    show iprop(Φmid m c (accN m c 1 (by decide)) ∗ (dats m ρ 0 c).owesAt () t0_2.castSucc
        ∗ (∃ d, owns (c : Thread nD τ) (st0_0 t0_2) fullShare ((dats m ρ 0 c).before 0 t0_2 d))
        ∗ (∃ d, owns (c : Thread nD τ) (st0_1 t0_2) fullShare ((dats m ρ 0 c).before 1 t0_2 d)))
      ⊢ wp frame (wpE (defs₀ (F := F)) 𝒱₀ c none) Set.univ
          (bodyOn (F := F) (grid0.coords t0_2) (st0_0 t0_2) (hstage0_0 ((cfg0.slots t0_2 0).cast nbuf0_0)) (st0_1 t0_2) (hstage0_1 ((cfg0.slots t0_2 1).cast nbuf0_1)))
          (fun _ => iprop(Φmid m c (k0_pay3 (xblk m c t0_2) (accN m c 1 (by decide))) ∗ (dats m ρ 0 c).owesAt () t0_2.succ
            ∗ owns (c : Thread nD τ) (st0_0 t0_2) fullShare (xblk m c t0_2)
            ∗ (∃ d, owns (c : Thread nD τ) (st0_1 t0_2) fullShare ((dats m ρ 0 c).before 1 t0_2 d))))
    iintro ⟨HΦ, Ho, ⟨%d0, H0⟩, ⟨%d1, H1⟩⟩
    rw [before0]
    unfold Φmid
    icases HΦ with ⟨HK, Hpos, Htoks, Hcr, Hlev, Hl, Hrow⟩
    iapply (run_mid c t0_2 (.inr rfl) _ _ _ _ (xblk m c t0_2) _ _ _)
    isplitl [H0]; · iexact H0
    isplitl [H1]; · iexact H1
    isplitl [Hl]; · iexact Hl
    iintro ⟨H0, H1, Hl⟩
    isplitl [HK Hpos Htoks Hcr Hlev Hl Hrow]
    · isplitl [HK]; · iexact HK
      isplitl [Hpos]; · iexact Hpos
      isplitl [Htoks]; · iexact Htoks
      isplitl [Hcr]; · iexact Hcr
      isplitl [Hlev]; · iexact Hlev
      isplitl [Hl]; · iexact Hl
      iexact Hrow
    isplitl [Ho]; · iexact Ho
    isplitl [H0]; · iexact H0
    iexists d1; iexact H1
  · rw [bigSep_W0, bigSep_W0]
    show iprop(Φmid m c (accN m c 2 (by decide)) ∗ (dats m ρ 0 c).owesAt () t0_3.castSucc
        ∗ (∃ d, owns (c : Thread nD τ) (st0_0 t0_3) fullShare ((dats m ρ 0 c).before 0 t0_3 d))
        ∗ (∃ d, owns (c : Thread nD τ) (st0_1 t0_3) fullShare ((dats m ρ 0 c).before 1 t0_3 d)))
      ⊢ wp frame (wpE (defs₀ (F := F)) 𝒱₀ c none) Set.univ
          (bodyOn (F := F) (grid0.coords t0_3) (st0_0 t0_3) (hstage0_0 ((cfg0.slots t0_3 0).cast nbuf0_0)) (st0_1 t0_3) (hstage0_1 ((cfg0.slots t0_3 1).cast nbuf0_1)))
          (fun _ => iprop(Φ₄ m c ∗ (dats m ρ 0 c).owesAt () t0_3.succ
            ∗ owns (c : Thread nD τ) (st0_0 t0_3) fullShare (xblk m c t0_3)
            ∗ owns (c : Thread nD τ) (st0_1 t0_3) fullShare (total m)))
    iintro ⟨HΦ, Ho, ⟨%d0, H0⟩, ⟨%d1, H1⟩⟩
    rw [before0]
    iapply (h3 _ _ _ _ (xblk m c t0_3) _ (accN m c 2 (by decide)) rfl _)
    isplitl [HΦ]; · iexact HΦ
    isplitl [Ho]; · iexact Ho
    isplitl [H0]; · iexact H0
    isplitl [H1]; · iexact H1
    iintro ⟨HΦ, Ho, H0, H1⟩
    isplitl [HΦ]; · iexact HΦ
    isplitl [Ho]; · iexact Ho
    isplitl [H0]; · iexact H0
    iexact H1

end Cert.Kernel.Hand
end
-- ==== Proof.Bits.Rows.lean ====
import proofs.«901074_g7700000000001075_dist_sum_ax0_shard0_i_m1024_n512_v7x_i8_f32_1_alg».proof.Proof.Bits.Sched

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem mem_row (r : Dev nD) (i : (comM : Memref sig .tc .vmem S8x512 .f32).view.ty.Idx) :
    i ∈ (rowM r).view.set ↔ ∀ a, (![r.val, 0] : Fin 2 → Nat) a ≤ i a ∧ (i a : Nat) < (![r.val, 0] : Fin 2 → Nat) a + S1x512.size a := by
  show i ∈ ((View.whole cc0_scratch1).slice (Rect.unit (s := S8x512) ![r.val, 0] S1x512.size (row_inb r))).set ↔ _
  rw [View.set_slice_whole, Rect.mem_set_unit]
  exact Iff.rfl

theorem rows_cover : (comM : Memref sig .tc .vmem S8x512 .f32).view.set = (Finset.univ : Finset (Dev nD)).biUnion fun r => (rowM r).view.set := by
  ext i
  show i ∈ (View.whole cc0_scratch1 : View sig .tc .vmem S8x512 .f32).set ↔ _
  rw [View.set_whole]
  refine ⟨fun _ => Finset.mem_biUnion.mpr ⟨⟨(i 0).val, (i 0).isLt⟩, Finset.mem_univ _, ?_⟩, fun _ => Finset.mem_univ _⟩
  rw [mem_row]
  intro a
  fin_cases a
  · exact ⟨Nat.le_refl _, Nat.lt_succ_self _⟩
  · exact ⟨Nat.zero_le _, (i 1).isLt⟩

theorem rows_disjoint (r r' : Dev nD) (h : r ≠ r') : Disjoint (rowM r).view.set (rowM r').view.set := by
  show Disjoint ((View.whole cc0_scratch1).slice (Rect.unit (s := S8x512) ![r.val, 0] S1x512.size (row_inb r))).set
    ((View.whole cc0_scratch1).slice (Rect.unit (s := S8x512) ![r'.val, 0] S1x512.size (row_inb r'))).set
  rw [View.set_slice_whole, View.set_slice_whole]
  refine Rect.unit_disjoint 0 ?_
  have hv : r.val ≠ r'.val := fun e => h (Fin.ext e)
  show r.val + 1 ≤ r'.val ∨ r'.val + 1 ≤ r.val
  omega

theorem com_rows (c : Dev nD) (f : Buf (Elt F) ((comM : Memref sig .tc .vmem S8x512 .f32).view.loc (c : Thread nD τ))) :
    (comPts c f : sProp 𝕄) = bigSep Finset.univ fun r : Dev nD => rowPts c r f := by
  unfold comPts rowPts
  rw [rows_cover]
  exact pointsTo_biUnion _ _ fun r _ r' _ h => rows_disjoint r r' h

end Cert.Kernel.Hand
end
-- ==== Proof.Bits.Body0Lib.lean ====
import proofs.«901074_g7700000000001075_dist_sum_ax0_shard0_i_m1024_n512_v7x_i8_f32_1_alg».proof.Proof.Bits.Rows
import proofs.«901074_g7700000000001075_dist_sum_ax0_shard0_i_m1024_n512_v7x_i8_f32_1_alg».proof.Proof.Bits.BodyLocal

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem dev1_eq (h : k0_dev1 < nD) : (⟨k0_dev1, h⟩ : Dev nD) = 0 := Fin.ext k0_dev1_eq
theorem dev2_eq (h : k0_dev2 < nD) : (⟨k0_dev2, h⟩ : Dev nD) = 1 := Fin.ext k0_dev2_eq
theorem dev3_eq (h : k0_dev3 < nD) : (⟨k0_dev3, h⟩ : Dev nD) = 2 := Fin.ext k0_dev3_eq
theorem dev4_eq (h : k0_dev4 < nD) : (⟨k0_dev4, h⟩ : Dev nD) = 3 := Fin.ext k0_dev4_eq
theorem dev5_eq (h : k0_dev5 < nD) : (⟨k0_dev5, h⟩ : Dev nD) = 4 := Fin.ext k0_dev5_eq
theorem dev6_eq (h : k0_dev6 < nD) : (⟨k0_dev6, h⟩ : Dev nD) = 5 := Fin.ext k0_dev6_eq
theorem dev7_eq (h : k0_dev7 < nD) : (⟨k0_dev7, h⟩ : Dev nD) = 6 := Fin.ext k0_dev7_eq
theorem dev8_eq (h : k0_dev8 < nD) : (⟨k0_dev8, h⟩ : Dev nD) = 7 := Fin.ext k0_dev8_eq

theorem rec_bar (K : Dev nD × CK → ℕ) (p : Dev nD) : (records (F := F) m K : sProp 𝕄) ⊢ cellInv ER (rd m) (K (p, CK.bar)) (barCell p) := by
  unfold records
  exact sep_elim_left.trans (show _ ⊢ _ from BI.bigSep_elim (Φ := fun ck : Dev nD × CK => cellInv ER (rd m) (K ck) (kcell ck)) (Finset.mem_univ (p, CK.bar)))

theorem rec_bar_reached (K : Dev nD × CK → ℕ) (p : Dev nD) : (records (F := F) m K : sProp 𝕄) ⊢ reached ER (barCell p) 0 := by
  unfold records
  exact sep_elim_right.trans (show _ ⊢ _ from BI.bigSep_elim (Φ := fun ck : Dev nD × CK => reached ER (kcell ck) 0) (Finset.mem_univ (p, CK.bar)))

theorem rec_recv_reached (K : Dev nD × CK → ℕ) (c q : Dev nD) : (records (F := F) m K : sProp 𝕄) ⊢ reached ER (recvCell c q) 0 := by
  unfold records
  exact sep_elim_right.trans (show _ ⊢ _ from BI.bigSep_elim (Φ := fun ck : Dev nD × CK => reached ER (kcell ck) 0) (Finset.mem_univ (c, CK.recv q)))

end Cert.Kernel.Hand
end
-- ==== Proof.Bits.Body0.lean ====
import proofs.«901074_g7700000000001075_dist_sum_ax0_shard0_i_m1024_n512_v7x_i8_f32_1_alg».proof.Proof.Bits.Body0Lib

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem payload_bar_f (c d : Dev nD) : (rd (F := F) m).payload (barCell c) 0 d = iprop((∃ f, rowPts d c f) ∗ reached ER (recvCell d c) 0) := rfl

attribute [local sl_rounds] duties_bar amount_bar payload_bar_f expect_bar
attribute [local irreducible] rowPts

theorem com_split (c : Dev nD) (f : Buf (Elt F) ((comM : Memref sig .tc .vmem S8x512 .f32).view.loc (c : Thread nD τ))) :
    (comPts c f : sProp 𝕄) = iprop(rowPts c c f ∗ bigSep (Finset.univ.erase c) fun r => rowPts c r f) := by
  rw [com_rows, BI.bigSep_univ_split c]; rfl

theorem erase_d0 : Finset.univ.erase (0 : Dev nD) = {1, 2, 3, 4, 5, 6, 7} := by decide
theorem erase_d1 : Finset.univ.erase (1 : Dev nD) = {0, 2, 3, 4, 5, 6, 7} := by decide
theorem erase_d2 : Finset.univ.erase (2 : Dev nD) = {0, 1, 3, 4, 5, 6, 7} := by decide
theorem erase_d3 : Finset.univ.erase (3 : Dev nD) = {0, 1, 2, 4, 5, 6, 7} := by decide
theorem erase_d4 : Finset.univ.erase (4 : Dev nD) = {0, 1, 2, 3, 5, 6, 7} := by decide
theorem erase_d5 : Finset.univ.erase (5 : Dev nD) = {0, 1, 2, 3, 4, 6, 7} := by decide
theorem erase_d6 : Finset.univ.erase (6 : Dev nD) = {0, 1, 2, 3, 4, 5, 7} := by decide
theorem erase_d7 : Finset.univ.erase (7 : Dev nD) = {0, 1, 2, 3, 4, 5, 6} := by decide

set_option maxHeartbeats 2000000 in
theorem run0 (c : Dev nD) : Run0 m ρ c := by
  intro arg1 harg1 arg2 harg2 x o Kt
  unfold Φ₀ Φmid start ghost Dat.owesAt Pipeline.owesWithin
  rw [show (dats m ρ 0 c).owed t0_0.castSucc = O₀ c from rfl, O₀]
  generalize hS : sendO c (Finset.univ.erase c) = S
  unfold sigO sigToks
  simp only [com_split]
  unfold owns
  iintro ⟨⟨⟨⟨%K, #Hrec, Hpos, Htoks, Hsend⟩, Hcred, #Hlev⟩, ⟨%fl, Hl⟩, ⟨%fc, Hown, Hrows⟩⟩, ⟨%W, %hW, HO⟩, ⟨%f0, %hf0, H0⟩, ⟨%f1, %hf1, H1⟩, Hk⟩
  obtain rfl := harg1.eq_unread hf0; obtain rfl := harg2.eq_unread hf1
  ihave #HI0 := (rec_bar m K 0) $$ Hrec
  ihave #HB0 := (rec_bar_reached m K 0) $$ Hrec
  ihave #HR0 := (rec_recv_reached m K c 0) $$ Hrec
  ihave #HI1 := (rec_bar m K 1) $$ Hrec
  ihave #HB1 := (rec_bar_reached m K 1) $$ Hrec
  ihave #HR1 := (rec_recv_reached m K c 1) $$ Hrec
  ihave #HI2 := (rec_bar m K 2) $$ Hrec
  ihave #HB2 := (rec_bar_reached m K 2) $$ Hrec
  ihave #HR2 := (rec_recv_reached m K c 2) $$ Hrec
  ihave #HI3 := (rec_bar m K 3) $$ Hrec
  ihave #HB3 := (rec_bar_reached m K 3) $$ Hrec
  ihave #HR3 := (rec_recv_reached m K c 3) $$ Hrec
  ihave #HI4 := (rec_bar m K 4) $$ Hrec
  ihave #HB4 := (rec_bar_reached m K 4) $$ Hrec
  ihave #HR4 := (rec_recv_reached m K c 4) $$ Hrec
  ihave #HI5 := (rec_bar m K 5) $$ Hrec
  ihave #HB5 := (rec_bar_reached m K 5) $$ Hrec
  ihave #HR5 := (rec_recv_reached m K c 5) $$ Hrec
  ihave #HI6 := (rec_bar m K 6) $$ Hrec
  ihave #HB6 := (rec_bar_reached m K 6) $$ Hrec
  ihave #HR6 := (rec_recv_reached m K c 6) $$ Hrec
  ihave #HI7 := (rec_bar m K 7) $$ Hrec
  ihave #HB7 := (rec_bar_reached m K 7) $$ Hrec
  ihave #HR7 := (rec_recv_reached m K c 7) $$ Hrec
  have h8 : ∀ d : Dev nD, d = 0 ∨ d = 1 ∨ d = 2 ∨ d = 3 ∨ d = 4 ∨ d = 5 ∨ d = 6 ∨ d = 7 := by decide
  rcases h8 c with rfl | rfl | rfl | rfl | rfl | rfl | rfl | rfl
  all_goals
    simp (disch := decide) only [erase_d0, erase_d1, erase_d2, erase_d3, erase_d4, erase_d5, erase_d6, erase_d7, BI.bigSep_insert, BI.bigSep_singleton, Finset.sum_insert, Finset.sum_singleton]
    ihave ⟨Htok1, Htok2, Htok3, Htok4, Htok5, Htok6, Htok7⟩ := (sep7 _ _ _ _ _ _ _) $$ Htoks
    ihave ⟨Hrow1, Hrow2, Hrow3, Hrow4, Hrow5, Hrow6, Hrow7⟩ := (sep7 _ _ _ _ _ _ _) $$ Hrows
    unfold bodyOn
    simp only [cc0_body_eq_skeleton]; unfold cc0_body_skel
    simp only [dev1_eq, dev2_eq, dev3_eq, dev4_eq, dev5_eq, dev6_eq, dev7_eq, dev8_eq]
    unfold locPts
    sl_exec (disch := first | decide)
    sl_step
    subst hS
    iapply Hk
    isplitr [HO H0 H1]
    · isplitr; · (iexists K; iexact Hrec)
      iframe Hpos Hsend Hcred
      isplitr; · iexact Hlev
      isplitl [Hl]
      · sl_unfold_words
        rw [View.writes_singleton]
        simp only [View.readAt_eq_ld, harg1.read_unread, View.ld_unit_zero (S := S256x512) hz2]
        rw [show View.write (Elt F) ((View.whole cc0_scratch0).slice (Rect.unit ![0, 0] ![1, 512] inb_S1x512_S1x512_0_0)) fl (k0_pay2 x) Finset.univ = k0_pay2 x from
          Memref.write_access_unit_zero_univ (Elt F) cc0_scratch0 hz2 _ fl _]
        iexact Hl
      · iexists fc; iexact Hown
    isplitl [HO]
    · iexists W; isplitr; · (ipureintro; exact fun _ _ => Or.inl trivial)
      iexact HO
    isplitl [H0]
    · iexists _; isplitr; · (ipureintro; exact harg1.read_unread _)
      iexact H0
    · iexists _; isplitr; · (ipureintro; exact harg2.read_unread _)
      iexact H1

end Cert.Kernel.Hand
end
-- ==== Proof.Bits.Levels.lean ====
import proofs.«901074_g7700000000001075_dist_sum_ax0_shard0_i_m1024_n512_v7x_i8_f32_1_alg».proof.Proof.Bits.Sched

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem lv_bar (p : Dev nD) (u : Unit) : lv (barCell p) u = 1 := rfl

theorem lv_recv (p q : Dev nD) (u : Unit) : lv (recvCell p q) u = 2 := by
  show (if 11 ≤ (recvSem q).val then 2 else 0) = 2
  rw [if_pos (by rw [recvSem_val]; omega)]

theorem lv_below (c : Dev nD) (s : DmaSem sig) (h : s.val < 11) (u : Unit) : lv ((c : Thread nD τ), .dma s) u = 0 := by
  show (if 11 ≤ s.val then 2 else 0) = 0
  rw [if_neg (by omega)]

theorem mem_L (c : Dev nD) (sm : SemLoc sig) (u : Unit) : u ∈ L ((c : Thread nD τ), sm) := by
  rw [L_tc]; exact Finset.mem_singleton.mpr rfl

theorem sendO_pos {c : Dev nD} {S : Finset (Dev nD)} {g : GSem nD τ sig} {u : Unit} (h : 0 < sendO c S g u) :
    ∃ p, g = recvCell p c := by
  unfold sendO at h
  obtain ⟨p, _, hp⟩ := Pipeline.sum_pos_exists h
  exact ⟨p, (Pipeline.tallyAt_pos hp).1⟩

theorem sigO_pos {S : Finset (Dev nD)} {g : GSem nD τ sig} {u : Unit} (h : 0 < sigO S g u) : ∃ p, g = barCell p := by
  unfold sigO at h
  obtain ⟨p, _, hp⟩ := Pipeline.sum_pos_exists h
  exact ⟨p, (Pipeline.tallyAt_pos hp).1⟩

theorem O₀_pos {c : Dev nD} {g : GSem nD τ sig} {u : Unit} (h : 0 < O₀ c g u) :
    (∃ p, g = recvCell p c) ∨ ∃ p, g = barCell p := by
  unfold O₀ at h
  rcases Pipeline.add_pos_cases h with h | h
  · exact Or.inl (sendO_pos h)
  · exact Or.inr (sigO_pos h)

theorem mayWait_bar (c : Dev nD) :
    (levAts L lv : sProp 𝕄) ⊢ MayWait (c : Thread nD τ) (.reg barS) () (sendO c (Finset.univ.erase c)) :=
  Pipeline.mayWait_of_levAts (mem_L c _ _) fun g u hg => by
    obtain ⟨p, rfl⟩ := sendO_pos hg
    refine ⟨mem_L p _ _, ?_⟩
    rw [lv_recv]
    exact (by decide : (1 : ℕ) < 2)

theorem mayWait_low (c : Dev nD) (s : DmaSem sig) (hs : s.val < 11) (O : CellTallies nD τ sig Unit)
    (hO : ∀ g u, 0 < O g u → (∃ p, g = recvCell p c) ∨ ∃ p, g = barCell p) :
    (levAts L lv : sProp 𝕄) ⊢ MayWait (c : Thread nD τ) (.dma s) () O :=
  Pipeline.mayWait_of_levAts (mem_L c _ _) fun g u hg => by
    rw [lv_below c s hs]
    rcases hO g u hg with ⟨p, rfl⟩ | ⟨p, rfl⟩
    · exact ⟨mem_L p _ _, by rw [lv_recv]; decide⟩
    · exact ⟨mem_L p _ _, by rw [lv_bar]; decide⟩

variable (m : (ℓ : Loc nD τ sig) → Buf (Elt F) ℓ) (ρ : Dev nD → PrngReg)

theorem owed_pos (c : Dev nD) (t : Fin (cfg0.N + 1)) {g : GSem nD τ sig} {u : Unit} (h : 0 < (dats m ρ 0 c).owed t g u) :
    (∃ p, g = recvCell p c) ∨ ∃ p, g = barCell p := by
  rcases t with ⟨_ | _ | _ | _ | t, ht⟩
  · exact O₀_pos h
  · exact Or.inl (sendO_pos h)
  · exact Or.inl (sendO_pos h)
  · exact Or.inl (sendO_pos h)
  · exact absurd h (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ fun g u hg => owed_pos m ρ c t hg

end Cert.Kernel.Hand

end
-- ==== Proof.Bits.Body3Lib.lean ====
import proofs.«901074_g7700000000001075_dist_sum_ax0_shard0_i_m1024_n512_v7x_i8_f32_1_alg».proof.Proof.Bits.BodyLocal
import proofs.«901074_g7700000000001075_dist_sum_ax0_shard0_i_m1024_n512_v7x_i8_f32_1_alg».proof.Proof.Bits.Levels
import proofs.«901074_g7700000000001075_dist_sum_ax0_shard0_i_m1024_n512_v7x_i8_f32_1_alg».proof.Proof.Bits.Rows

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem rec_cell3 (K : Dev nD × CK → ℕ) (ck : Dev nD × CK) :
    records (F := F) m K ⊢ iprop(cellInv ER (rd m) (K ck) (kcell ck) ∗ reached ER (kcell ck) 0) := by
  unfold records
  exact BIClass.sep_mono
    (show bigSep Finset.univ (fun ck : Dev nD × CK => cellInv ER (rd (F := F) m) (K ck) (kcell ck)) ⊢ cellInv ER (rd (F := F) m) (K ck) (kcell ck)
      from BI.bigSep_elim (Finset.mem_univ ck))
    (show bigSep Finset.univ (fun ck : Dev nD × CK => (reached ER (kcell ck) 0 : sProp 𝕄)) ⊢ reached ER (kcell ck) 0
      from BI.bigSep_elim (Finset.mem_univ ck))

theorem rec_bar3 (K : Dev nD × CK → ℕ) (c : Dev nD) :
    records (F := F) m K ⊢ iprop(cellInv ER (rd m) (K (c, .bar)) (barCell c) ∗ reached ER (barCell c) 0) := rec_cell3 m K (c, .bar)
theorem rec_send3 (K : Dev nD × CK → ℕ) (c q : Dev nD) :
    records (F := F) m K ⊢ iprop(cellInv ER (rd m) (K (c, .send q)) (sendCell c q) ∗ reached ER (sendCell c q) 0) := rec_cell3 m K (c, .send q)
theorem rec_recv3 (K : Dev nD × CK → ℕ) (c q : Dev nD) :
    records (F := F) m K ⊢ iprop(cellInv ER (rd m) (K (c, .recv q)) (recvCell c q) ∗ reached ER (recvCell c q) 0) := rec_cell3 m K (c, .recv q)

theorem payload_bar_raw3 (c d : Dev nD) : (rd (F := F) m).payload (barCell c) 0 d
    = iprop((∃ f, ((rowM c).view.loc (d : Thread nD τ) ↦[(rowM c).view.set]{fullShare} f)) ∗ reached ER (recvCell d c) 0) := rfl

theorem table_row (c : Dev nD) (y : S1x512.Idx) :
    table m ((Rect.unit (s := S8x512) ![c.val, 0] S1x512.size (row_inb c)).emb y) = devSum m c y := by
  unfold table
  have h0 : (y 0).val = 0 := by have := (y 0).isLt; exact Nat.lt_one_iff.mp this
  have e1 : (⟨(((Rect.unit (s := S8x512) ![c.val, 0] S1x512.size (row_inb c)).emb y) 0).val, (((Rect.unit (s := S8x512) ![c.val, 0] S1x512.size (row_inb c)).emb y) 0).isLt⟩ : Dev nD) = c :=
    Fin.ext (by show c.val + 1 * (y 0).val = c.val; omega)
  have e2 : ValueIdx.ix2 (0 : Fin 1) (((Rect.unit (s := S8x512) ![c.val, 0] S1x512.size (row_inb c)).emb y) 1) = y := by
    funext a
    fin_cases a
    · exact Fin.ext (by show 0 = (y 0).val; omega)
    · exact Fin.ext (by show 0 + 1 * (y 1).val = (y 1).val; omega)
  rw [e1]
  exact congrArg (devSum m c) e2

theorem row_landed (c p : Dev nD) (fd : Buf (Elt F) ((rowM c).view.loc (p : Thread nD τ))) :
    ((rowM c).view.loc (p : Thread nD τ) ↦[(rowM c).view.set]{fullShare}
        ((rowM c).view.write (Elt F) fd ((locM : Memref sig .tc .vmem S1x512 .f32).view.read (Elt F) (sumBuf m c)) Finset.univ) : sProp 𝕄)
      = rowPts p c (tableBuf m p) := by
  unfold rowPts
  refine pointsTo_congr fun i hi => ?_
  obtain ⟨y, rfl⟩ := View.exists_emb_of_mem_set _ hi
  rw [View.write_emb_of_mem _ _ (Finset.mem_univ y)]
  exact (table_row m c y).symm

theorem send_step (c p : Dev nD) (hp : p ≠ c) {κ₁ κ₂ : ℕ} (fd : Buf (Elt F) ((rowM c).view.loc (p : Thread nD τ)))
    {hsc hsrc hdst hsem} {α : Type} {k : PUnit → Prog (TpuEff nD τ sig (Elt F) Λ₀ .tc) α} {Q : α → sProp 𝕄}
    (O : CellTallies nD τ sig Unit) {O₀ : CellTallies nD τ sig Unit} (hO : O₀ = O + tallyAt (recvCell p c) () N) {W : Waits sig Unit} :
    iprop(cellInv ER (rd m) κ₁ (sendCell c p) ∗ cellInv ER (rd m) κ₂ (recvCell p c)
        ∗ ((locM : Memref sig .tc .vmem S1x512 .f32).view.loc (c : Thread nD τ) ↦[(locM : Memref sig .tc .vmem S1x512 .f32).view.set]{tokShare p} devSum m c) ∗ ((rowM c).view.loc (p : Thread nD τ) ↦[(rowM c).view.set]{fullShare} fd)
        ∗ owes (c : Thread nD τ) O₀ W
        ∗ dutyTok ER (sendCell c p) 0 p ∗ reached ER (sendCell c p) 0
        ∗ dutyTok ER (recvCell p c) 0 c ∗ reached ER (recvCell p c) 0)
      ⊢ iprop(((cred (tallyAt (sendCell c p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (locM : Memref sig .tc .vmem S1x512 .f32) (.remote (p : Thread nD τ) (rowM c) (.dma (sendSem p)) hsc) (.dma (recvSem c)) hsrc hdst hsem) k) Q) :=
  Rounds.wp_send_pointsTo 𝒱₀ ER (rd m) (c : Thread nD τ) none (c' := (p : Thread nD τ)) (src := locM) (dst := rowM c) (q := tokShare p) (fs := sumBuf m c) (fd := fd)
    (by rw [duties_send m c p hp]; exact Finset.mem_singleton_self _) (by rw [duties_recv m p c hp.symm]; exact Finset.mem_singleton_self _)
    () () N rfl (amount_send m c p p) (amount_recv m p c c) O hO
    (by rw [payload_send]; exact .rfl) (by rw [payload_recv, row_landed]; exact .rfl)

theorem send_rec (K : Dev nD × CK → ℕ) (c p : Dev nD) (hp : p ≠ c) (fd : Buf (Elt F) ((rowM c).view.loc (p : Thread nD τ)))
    {hsc hsrc hdst hsem} {α : Type} {k : PUnit → Prog (TpuEff nD τ sig (Elt F) Λ₀ .tc) α} {Q : α → sProp 𝕄}
    (O : CellTallies nD τ sig Unit) {O₀ : CellTallies nD τ sig Unit} (hO : O₀ = O + tallyAt (recvCell p c) () N) {W : Waits sig Unit} :
    iprop(records m K ∗ ((locM : Memref sig .tc .vmem S1x512 .f32).view.loc (c : Thread nD τ) ↦[(locM : Memref sig .tc .vmem S1x512 .f32).view.set]{tokShare p} devSum m c) ∗ ((rowM c).view.loc (p : Thread nD τ) ↦[(rowM c).view.set]{fullShare} fd) ∗ owes (c : Thread nD τ) O₀ W
        ∗ dutyTok ER (sendCell c p) 0 p ∗ dutyTok ER (recvCell p c) 0 c)
      ⊢ iprop(((cred (tallyAt (sendCell c p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (locM : Memref sig .tc .vmem S1x512 .f32) (.remote (p : Thread nD τ) (rowM c) (.dma (sendSem p)) hsc) (.dma (recvSem c)) hsrc hdst hsem) k) Q) := by
  iintro ⟨#Hrec, Hs, Hd, HO, Ht1, Ht2⟩
  ihave HX := (rec_send3 m K c p) $$ Hrec
  icases HX with ⟨#HI1, #HR1⟩
  ihave HY := (rec_recv3 m K p c) $$ Hrec
  icases HY with ⟨#HI2, #HR2⟩
  iapply (send_step m c p hp fd O hO)
  isplitl []; · iexact HI1
  isplitl []; · iexact HI2
  isplitl [Hs]; · iexact Hs
  isplitl [Hd]; · iexact Hd
  isplitl [HO]; · iexact HO
  isplitl [Ht1]; · iexact Ht1
  isplitl []; · iexact HR1
  isplitl [Ht2]; · iexact Ht2
  iexact HR2

theorem payload_send_raw (c q d : Dev nD) : (rd (F := F) m).payload (sendCell c q) 0 d
    = ((locM : Memref sig .tc .vmem S1x512 .f32).view.loc (c : Thread nD τ) ↦[(locM : Memref sig .tc .vmem S1x512 .f32).view.set]{tokShare q} sumBuf m c) := by
  rw [payload_send]; rfl
theorem payload_recv_raw (c q d : Dev nD) : (rd (F := F) m).payload (recvCell c q) 0 d
    = ((rowM q).view.loc (c : Thread nD τ) ↦[(rowM q).view.set]{fullShare} tableBuf m c) := by
  rw [payload_recv]; rfl

theorem acc_store (arg1 : Memref sig .tc .vmem S256x512 .f32) (harg1 : arg1.IsWhole) (x : Vec F S256x512 .f32) (a : Vec F S1x512 .f32) :
    (locM : Memref sig .tc .vmem S1x512 .f32).view.writes (Elt F) a
      [⟨Rect.unit (s := S1x512) ![0, 0] S1x512.size inb_S1x512_S1x512_0_0,
        k0_pay3 (View.readAt (Elt F) arg1.view (Rect.unit (s := S256x512) ![0, 0] S256x512.size inb_S256x512_S256x512_0_0).toLoadRect (harg1.unread x))
          (View.readAt (Elt F) (locM : Memref sig .tc .vmem S1x512 .f32).view (Rect.unit (s := S1x512) ![0, 0] S1x512.size inb_S1x512_S1x512_0_0).toLoadRect a)⟩]
    = k0_pay3 x a := by
  rw [View.writes_singleton]
  simp only [View.readAt_eq_ld, harg1.read_unread, View.ld_unit_zero (S := S256x512) hz2, View.ld_unit_zero (S := S1x512) hz2]
  rw [View.read_whole]
  exact Memref.write_access_unit_zero_univ (Elt F) cc0_scratch0 hz2 _ a _

theorem own_row_congr (c : Dev nD) (g : Buf (Elt F) ((rowM c).view.loc (c : Thread nD τ)))
    (hg : ∀ y : S1x512.Idx, g ((rowM c).view.emb y) = devSum m c y) :
    (((rowM c).view.loc (c : Thread nD τ) ↦[(rowM c).view.set]{fullShare} g) : sProp 𝕄) = ((rowM c).view.loc (c : Thread nD τ) ↦[(rowM c).view.set]{fullShare} tableBuf m c) := by
  refine pointsTo_congr fun i hi => ?_
  obtain ⟨y, rfl⟩ := View.exists_emb_of_mem_set _ hi
  exact (hg y).trans (table_row m c y).symm

theorem own_row_ent (c : Dev nD) (g : Buf (Elt F) ((rowM c).view.loc (c : Thread nD τ)))
    (hg : ∀ y : S1x512.Idx, g ((rowM c).view.emb y) = devSum m c y) :
    (((rowM c).view.loc (c : Thread nD τ) ↦[(rowM c).view.set]{fullShare} g) : sProp 𝕄) ⊢ ((rowM c).view.loc (c : Thread nD τ) ↦[(rowM c).view.set]{fullShare} tableBuf m c) := by
  rw [own_row_congr m c g hg]

theorem own_row_val (c : Dev nD) (fr : Buf (Elt F) ((rowM c).view.loc (c : Thread nD τ))) {off : Fin 2 → Nat} (hoff : off = ![c.val, 0])
    {inb : ∀ a, off a + S1x512.size a ≤ S8x512.size a} {h1} (y : S1x512.Idx) :
    View.write (Elt F) ((Memref.whole cc0_scratch1 : Memref sig .tc .vmem S8x512 .f32).access (Rect.unit (s := S8x512) off S1x512.size inb)) fr
        (k0_pay4 (View.readAt (Elt F) (locM : Memref sig .tc .vmem S1x512 .f32).view (Rect.unit (s := S1x512) ![0, 0] S1x512.size h1).toLoadRect (devSum m c))) Finset.univ
        ((rowM c).view.emb y) = devSum m c y := by
  subst hoff
  have e : k0_pay4 (View.readAt (Elt F) (locM : Memref sig .tc .vmem S1x512 .f32).view (Rect.unit (s := S1x512) ![0, 0] S1x512.size h1).toLoadRect (devSum m c)) = devSum m c := by
    unfold k0_pay4
    refine (shapeCast_self (s := S1x512) _ _).trans ?_
    rw [View.readAt_eq_ld, View.read_whole, View.ld_unit_zero hz2]
  rw [e]
  exact View.write_emb_of_mem (v := ((Memref.whole cc0_scratch1 : Memref sig .tc .vmem S8x512 .f32).access (Rect.unit (s := S8x512) ![c.val, 0] S1x512.size inb))) fr (devSum m c) (Finset.mem_univ y)

theorem close_send_used (K : Dev nD × CK → ℕ) (c q : Dev nD) :
    records (F := F) m K ⊢ iprop(atPos ER (sendCell c q) 1 ∅ 0 -∗ |={Set.univ}=> semVal (sendCell c q) 0) := by
  iintro #Hrec Hat
  ihave HX := (rec_send3 m K c q) $$ Hrec
  icases HX with ⟨#HI, -⟩
  iapply (Rounds.cell_close ER (rd m) (Set.mem_univ _) (fun h => h) (fun r hr => duties_later m _ r hr))
  isplitl []; · iexact HI
  iexact Hat

theorem close_recv_used (K : Dev nD × CK → ℕ) (c q : Dev nD) :
    records (F := F) m K ⊢ iprop(atPos ER (recvCell c q) 1 ∅ 0 -∗ |={Set.univ}=> semVal (recvCell c q) 0) := by
  iintro #Hrec Hat
  ihave HX := (rec_recv3 m K c q) $$ Hrec
  icases HX with ⟨#HI, -⟩
  iapply (Rounds.cell_close ER (rd m) (Set.mem_univ _) (fun h => h) (fun r hr => duties_later m _ r hr))
  isplitl []; · iexact HI
  iexact Hat

theorem close_send_self (K : Dev nD × CK → ℕ) (c : Dev nD) :
    records (F := F) m K ⊢ iprop(atPos ER (sendCell c c) 0 ∅ 0 -∗ |={Set.univ}=> semVal (sendCell c c) 0) := by
  iintro #Hrec Hat
  ihave HX := (rec_send3 m K c c) $$ Hrec
  icases HX with ⟨#HI, -⟩
  iapply (Rounds.cell_close ER (rd m) (Set.mem_univ _) (fun h => h) (fun r _ => duties_send_self m c r))
  isplitl []; · iexact HI
  iexact Hat

theorem close_recv_self (K : Dev nD × CK → ℕ) (c : Dev nD) :
    records (F := F) m K ⊢ iprop(atPos ER (recvCell c c) 0 ∅ 0 -∗ |={Set.univ}=> semVal (recvCell c c) 0) := by
  iintro #Hrec Hat
  ihave HX := (rec_recv3 m K c c) $$ Hrec
  icases HX with ⟨#HI, -⟩
  iapply (Rounds.cell_close ER (rd m) (Set.mem_univ _) (fun h => h) (fun r _ => duties_recv_self m c r))
  isplitl []; · iexact HI
  iexact Hat

theorem ownSems0_eq3 (c : Dev nD) : (Pipeline.ownSems0 osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
      ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [(0, 0), (0, 1), (0, 2), (0, 3), (0, 4), (0, 5), (0, 6), (0, 7), (1, 0), (1, 1), (1, 2), (1, 3), (1, 4), (1, 5), (1, 6), (1, 7)] (by decide) (by decide)]
  rfl

omit [FloatOps F] in
theorem unit_zero_emb {S : Shape} {off : Fin S.rank → Nat} (h : off = fun _ => 0) (inb : ∀ a, off a + S.size a ≤ S.size a) (y : S.Idx) :
    (Rect.unit off S.size inb).emb y = y := by
  subst h; exact Rect.emb_whole_apply S y

theorem out_store (arg2 : Memref sig .tc .vmem S1x512 .f32) (f : arg2.view.ty.Contents (Elt F)) (c : Dev nD) {h1 h2} :
    arg2.view.read (Elt F) (arg2.view.writes (Elt F) f
      [⟨Rect.unit (s := S1x512) ![0, 0] S1x512.size h1,
        k0_pay5 (View.readAt (Elt F) (comM : Memref sig .tc .vmem S8x512 .f32).view (Rect.unit (s := S8x512) ![0, 0] S8x512.size h2).toLoadRect (tableBuf m c))⟩]) = total m := by
  have e : View.readAt (Elt F) (comM : Memref sig .tc .vmem S8x512 .f32).view (Rect.unit (s := S8x512) ![0, 0] S8x512.size h2).toLoadRect (tableBuf m c) = table m := by
    rw [View.readAt_eq_ld, View.read_whole, View.ld_unit_zero hz2]; rfl
  rw [e]
  funext y
  have h := View.read_writes_cons_emb arg2.view f (Rect.unit (s := S1x512) ![0, 0] S1x512.size h1) (k0_pay5 (table m)) [] y
  rw [unit_zero_emb hz2 h1 y] at h
  exact h

end Cert.Kernel.Hand
end
-- ==== Proof.Bits.Launch.lean ====
import proofs.«901074_g7700000000001075_dist_sum_ax0_shard0_i_m1024_n512_v7x_i8_f32_1_alg».proof.Proof.Bits.Levels

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem bar_eq_iff {a b : Dev nD} : barCell a = barCell b ↔ a = b :=
  ⟨fun h => congrArg (fun g : GSem nD τ sig => g.1.1) h, fun h => h ▸ rfl⟩

theorem sendSem_inj {q q' : Dev nD} (h : sendSem q = sendSem q') : q = q' := by
  have := congrArg semPeer h; rwa [semPeer_send, semPeer_send] at this
theorem recvSem_inj {q q' : Dev nD} (h : recvSem q = recvSem q') : q = q' := by
  have := congrArg semPeer h; rwa [semPeer_recv, semPeer_recv] at this
theorem sendSem_ne_recvSem (q q' : Dev nD) : sendSem q ≠ recvSem q' := fun h => by
  have h1 := congrArg Fin.val h
  rw [sendSem_val, recvSem_val] at h1
  have : q.val < 8 := q.isLt
  omega

theorem recv_eq_iff {a b q q' : Dev nD} : recvCell a q = recvCell b q' ↔ a = b ∧ q = q' :=
  ⟨fun h => ⟨congrArg (fun g : GSem nD τ sig => g.1.1) h, recvSem_inj (SemLoc.dma.inj (congrArg Prod.snd h))⟩,
    fun h => by rw [h.1, h.2]⟩
theorem recv_ne_bar (a q b : Dev nD) : recvCell a q ≠ barCell b := fun h => by cases congrArg Prod.snd h
theorem bar_ne_recv (a q b : Dev nD) : barCell b ≠ recvCell a q := fun h => by cases congrArg Prod.snd h

theorem csem_injective : Function.Injective csem := by
  intro k k' h
  cases k with
  | bar => cases k' with
    | bar => rfl
    | send q' => cases h
    | recv q' => cases h
  | send q => cases k' with
    | bar => cases h
    | send q' => rw [sendSem_inj (SemLoc.dma.inj h)]
    | recv q' => exact absurd (SemLoc.dma.inj h) (sendSem_ne_recvSem q q')
  | recv q => cases k' with
    | bar => cases h
    | send q' => exact absurd (SemLoc.dma.inj h).symm (sendSem_ne_recvSem q' q)
    | recv q' => rw [recvSem_inj (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  subst h1
  have hk : k = k' := csem_injective (congrArg Prod.snd h)
  rw [hk]

def allCells : Finset (GSem nD τ sig) := Finset.univ.map ⟨kcell, kcell_injective⟩

def ckEquiv : Unit ⊕ (Dev nD ⊕ Dev nD) ≃ CK where
  toFun := fun | .inl _ => .bar | .inr (.inl q) => .send q | .inr (.inr q) => .recv q
  invFun := fun | .bar => .inl () | .send q => .inr (.inl q) | .recv q => .inr (.inr q)
  left_inv := fun | .inl _ => rfl | .inr (.inl _) => rfl | .inr (.inr _) => rfl
  right_inv := fun | .bar => rfl | .send _ => rfl | .recv _ => rfl

theorem bigSep_CK {M : Type} [URA M] (Φ : CK → sProp M) :
    bigSep Finset.univ Φ = iprop(Φ .bar ∗ (bigSep Finset.univ fun q : Dev nD => Φ (.send q)) ∗ bigSep Finset.univ fun q : Dev nD => Φ (.recv q)) := by
  rw [bigSep_univ_equiv ckEquiv Φ, bigSep_univ_sum, bigSep_univ_sum, bigSep_univ_of_subsingleton ()]
  rfl

def ckOf (j : Fin 3) (q : Dev nD) : CK := match j with | 0 => .bar | 1 => .send q | 2 => .recv q

theorem ckOf_injective (q : Dev nD) : Function.Injective (fun j => ckOf j q) := by
  intro j j' h
  fin_cases j <;> fin_cases j' <;> first | rfl | cases h

abbrev TI : Type := (_ : Dev nD) × ((_ : Dev nD) × Fin 3)

def tokOf (x : TI) : GSem nD τ sig × ℕ × Dev nD := (kcell (x.1, ckOf x.2.2 x.2.1), 0, x.2.1)

theorem tokOf_injective : Function.Injective tokOf := by
  rintro ⟨c, q, j⟩ ⟨c', q', j'⟩ h
  have hq : q = q' := congrArg (fun x : GSem nD τ sig × ℕ × Dev nD => x.2.2) h
  subst hq
  have hk := kcell_injective (congrArg (fun x : GSem nD τ sig × ℕ × Dev nD => x.1) h)
  have hc : c = c' := congrArg Prod.fst hk
  subst hc
  have hj : j = j' := ckOf_injective q (congrArg Prod.snd hk)
  rw [hj]

def tokIdx : Finset TI := Finset.univ.sigma fun c => (Finset.univ.erase c).sigma fun _ => Finset.univ
def allToks : Finset (GSem nD τ sig × ℕ × Dev nD) := tokIdx.map ⟨tokOf, tokOf_injective⟩

def u₀ : UU :=
  (initOf (Pipeline.cells cfgs cellOf_inj) (Pipeline.launchToks cfgs cellOf_inj), initOf allCells allToks)

def ownToks (c : Dev nD) : sProp 𝕄 :=
  bigSep (Finset.univ.erase c) fun q => iprop(dutyTok ER (barCell c) 0 q ∗ dutyTok ER (sendCell c q) 0 q ∗ dutyTok ER (recvCell c q) 0 q)

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ ownToks c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks tokIdx; rw [bigSep_map, Pipeline.bigSep_sigma]
    refine bigSep_congr fun c _ => ?_
    unfold ownToks; rw [Pipeline.bigSep_sigma]
    exact bigSep_congr fun q _ => by rw [bigSep_fin3]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem ownSems0_eq (c : Dev nD) : (Pipeline.ownSems0 (Ix := Unit) (Name := ℕ) (U := UU) (Lvl := ℕ) (Val := Elt F) (τ := τ) osem c : sProp 𝕄)
    = iprop((bigSep Finset.univ fun q : Dev nD => semVal (sendCell c q) 0) ∗ bigSep Finset.univ fun q : Dev nD => semVal (recvCell c q) 0) := by
  unfold Pipeline.ownSems0; rw [bigSep_univ_prod, bigSep_univ_two]
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in

theorem toks_deal : (bigSep Finset.univ fun c : Dev nD => (ownToks c : sProp 𝕄)) ⊢ bigSep Finset.univ fun c : Dev nD => iprop(sigToks c ∗ sendToks c) := by
  unfold ownToks sigToks sendToks
  simp only [bigSep_sep']
  rw [bigSep_erase_comm (fun c q : Dev nD => (dutyTok ER (barCell c) 0 q : sProp 𝕄)),
    bigSep_erase_comm (fun c q : Dev nD => (dutyTok ER (recvCell c q) 0 q : sProp 𝕄))]
  iintro ⟨HB, HS, HR⟩
  isplitl [HB]; · iexact HB
  isplitl [HR]; · iexact HR
  iexact HS

omit [FloatOps F] in
theorem bigSep_frame_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem ghost_intro (K : Dev nD × CK → ℕ) (c : Dev nD) : iprop(records m K ∗ positions c ∗ sigToks c ∗ sendToks c) ⊢ G' m c := by
  unfold G' ghost
  iintro ⟨#HR, Hp, Hs, Ht⟩
  iexists K
  isplitr; · iexact HR
  isplitl [Hp]; · iexact Hp
  isplitl [Hs] <;> iassumption

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_deal (F := F)) $$ Htok
  iapply (bigSep_frame_persistent (R := records m K) fun c _ => ghost_intro m K c)
  isplitr
  · unfold records; isplitl; · iexact HI
    iexact HR
  · iapply (Entails.of_eq (bigSep_sep' Finset.univ (fun c : Dev nD => (positions c : sProp 𝕄)) (fun c => iprop(sigToks c ∗ sendToks c))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem sendO_bar (d c : Dev nD) (S : Finset (Dev nD)) : sendO d S (barCell c) () = 0 := by
  unfold sendO
  rw [Pipeline.sum_tallyAt_cells S (cell := fun p => recvCell p d) (fun a b h => (recv_eq_iff.mp h).1) () N (barCell c) (),
    if_neg fun h => by obtain ⟨⟨p, _, hp⟩, _⟩ := h; exact recv_ne_bar _ _ _ hp]

omit [FloatOps F] in
theorem sigO_recv (c q : Dev nD) (S : Finset (Dev nD)) : sigO S (recvCell c q) () = 0 := by
  unfold sigO
  rw [Pipeline.sum_tallyAt_cells S (cell := fun p => barCell p) (fun a b h => bar_eq_iff.mp h) () 1 (recvCell c q) (),
    if_neg fun h => by obtain ⟨⟨p, _, hp⟩, _⟩ := h; exact bar_ne_recv _ _ _ hp]

omit [FloatOps F] in

theorem owed_bar (d c : Dev nD) : O₀ d (barCell c) () = if d ≠ c then 1 else 0 := by
  unfold O₀
  rw [Pi.add_apply, Finsupp.add_apply, sendO_bar, Nat.zero_add]
  unfold sigO
  rw [Pipeline.sum_tallyAt_cells (Finset.univ.erase d) (cell := fun p => barCell p) (fun a b h => bar_eq_iff.mp h) () 1 (barCell c) ()]
  by_cases h : d = c
  · rw [if_neg (fun h' => by
      obtain ⟨⟨p, hp, hpc⟩, _⟩ := h'
      exact (Finset.mem_erase.mp hp).1 ((bar_eq_iff.mp hpc).trans h.symm)), if_neg (not_not.mpr h)]
  · rw [if_pos ⟨⟨c, Finset.mem_erase.mpr ⟨fun h' => h h'.symm, Finset.mem_univ _⟩, rfl⟩, rfl⟩, if_pos h]

omit [FloatOps F] in

theorem owed_recv (d c q : Dev nD) (hq : q ≠ c) : O₀ d (recvCell c q) () = if d = q then N else 0 := by
  unfold O₀
  rw [Pi.add_apply, Finsupp.add_apply, sigO_recv, Nat.add_zero]
  unfold sendO
  rw [Pipeline.sum_tallyAt_cells (Finset.univ.erase d) (cell := fun p => recvCell p d) (fun a b h => (recv_eq_iff.mp h).1) () N (recvCell c q) ()]
  by_cases h : d = q
  · subst h
    rw [if_pos ⟨⟨c, Finset.mem_erase.mpr ⟨fun h' => hq h'.symm, Finset.mem_univ _⟩, rfl⟩, rfl⟩, if_pos rfl]
  · rw [if_neg (fun h' => by
      obtain ⟨⟨p, _, hpc⟩, _⟩ := h'
      exact h (recv_eq_iff.mp hpc).2), if_neg h]

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_boole,
    Finset.filter_ne' Finset.univ c, Finset.card_erase_of_mem (Finset.mem_univ _), Finset.card_univ, Fintype.card_fin]
  rfl

omit [FloatOps F] in
theorem launch_recv (c q : Dev nD) (hq : q ≠ c) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q hq,
    Finset.sum_ite_eq' Finset.univ q fun _ => N, if_pos (Finset.mem_univ _)]

omit [FloatOps F] in
theorem recvLoc_injective : Function.Injective (fun q : Dev nD => (SemLoc.dma (recvSem q) : SemLoc sig)) :=
  fun a b h => recvSem_inj (SemLoc.dma.inj h)

omit [FloatOps F] in

theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.erase c).map ⟨_, recvLoc_injective⟩ ⊆ (Finset.univ : Finset (SemLoc sig)).erase (SemLoc.reg barS) := fun sm hsm => by
    obtain ⟨q, _, rfl⟩ := Finset.mem_map.mp hsm
    exact Finset.mem_erase.mpr ⟨fun h => (by cases h), Finset.mem_univ _⟩
  refine (bigSep_subset hsub).trans ?_
  rw [bigSep_map]
  exact bigSep_mono (s := Finset.univ.erase c) fun q hq => Entails.of_eq (congrArg cred (launch_recv c q (Finset.mem_erase.mp hq).1))

omit [FloatOps F] in
theorem locPts_eq (c : Dev nD) (q : PosShare TreeShare) (f : Buf (Elt F) ((c : Thread nD τ).loc cc0_scratch0)) :
    locPts c q f = (((c : Thread nD τ).loc cc0_scratch0) ↦{q} f : sProp 𝕄) := by unfold locPts; rw [View.set_whole]
omit [FloatOps F] in
theorem comPts_eq (c : Dev nD) (f : Buf (Elt F) ((c : Thread nD τ).loc cc0_scratch1)) :
    comPts c f = (((c : Thread nD τ).loc cc0_scratch1) ↦{fullShare} f : sProp 𝕄) := by unfold comPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hl⟩, ⟨%g, Hc⟩⟩
  isplitl [Hs]; · iexact Hs
  isplitl [Hl]
  · iexists f; rw [locPts_eq]; iexact Hl
  · iexists g; rw [comPts_eq]; iexact Hc

theorem phi4_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₄ m c from rfl, scopedRest0_eq]
  unfold Φ₄
  iintro ⟨Hl, Hc, Hz⟩
  isplitr; · iempintro
  isplitl [Hz]; · iexact Hz
  isplitl [Hl]
  · iexists (sumBuf m c); rw [← locPts_eq]; iexact Hl
  · iexists (tableBuf m c); rw [← comPts_eq]; iexact Hc

theorem final_in (c : Dev nD) : (dats m ρ 0 c).arrAt (0 : Fin 2) cfg0.N = m ((c : Thread nD τ).loc main_arg0) :=
  (dats (F := F) m ρ 0 c).arrAt_in (0 : Fin 2) rfl _

theorem final_out (c : Dev nD) : (dats m ρ 0 c).arrAt (1 : Fin 2) cfg0.N = totalBuf m c := by
  have h := (dats (F := F) m ρ 0 c).arrAt_succ (1 : Fin 2) t0_3
  rw [if_pos ((flush0_1 t0_3).mpr rfl)] at h
  refine (show (dats m ρ 0 c).arrAt (1 : Fin 2) cfg0.N = (dats m ρ 0 c).arrAt (1 : Fin 2) (t0_3.val + 1) from rfl).trans (h.trans ?_)
  exact Memref.write_access_unit_zero_univ (Elt F) main_v1 (funext fun a => by fin_cases a <;> rfl) _ _ _

set_option maxRecDepth 8000 in

theorem run_of_body (hbody : ∀ c : Dev nD, BodyObligation (dats (F := F) m ρ 0 c) (defs₀ (F := F)) 𝒱₀ () Set.univ) :
    θ_run (defs (F := F)) (onTc (τ := τ) (main (F := F))) ⟨m, fun _ => 0, ρ⟩ (RunPost m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi4_exit m ρ)
    (QY := fun _ _ => True)
    (hY := fun c s' => by
      iintro ⟨-, -, HSI⟩
      imodintro
      isplitr; · ipureintro; trivial
      iexact HSI)
    (hQ := fun s h c => ⟨((h c).1 (1 : Fin 2)).trans (final_out m ρ c), ((h c).1 (0 : Fin 2)).trans (final_in m ρ c)⟩)

end Cert.Kernel.Hand

end
-- ==== Proof.Bits.Body3.lean ====
import proofs.«901074_g7700000000001075_dist_sum_ax0_shard0_i_m1024_n512_v7x_i8_f32_1_alg».proof.Proof.Bits.Body3Lib
import proofs.«901074_g7700000000001075_dist_sum_ax0_shard0_i_m1024_n512_v7x_i8_f32_1_alg».proof.Proof.Bits.Launch

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem acc_split' (c : Dev nD) (f : Buf (Elt F) ((locM : Memref sig .tc .vmem S1x512 .f32).view.loc (c : Thread nD τ))) :
    (locPts c fullShare f : sProp 𝕄) ⊢ iprop(locPts c restShare f ∗ locPts c (tokShare c) f ∗ bigSep (Finset.univ.erase c) fun p => locPts c (tokShare p) f) := by
  unfold locPts
  refine (Transfers.pointsTo_toks_split fullShare 8).trans ?_
  rw [BI.bigSep_univ_split c]; exact .rfl

theorem acc_join' (c : Dev nD) (f : Buf (Elt F) ((locM : Memref sig .tc .vmem S1x512 .f32).view.loc (c : Thread nD τ))) :
    iprop(locPts c restShare f ∗ locPts c (tokShare c) f ∗ bigSep (Finset.univ.erase c) fun p => locPts c (tokShare p) f) ⊢ (locPts c fullShare f : sProp 𝕄) := by
  unfold locPts
  refine BIBase.Entails.trans ?_ (Transfers.pointsTo_toks_join fullShare 8)
  rw [BI.bigSep_univ_split c]; exact .rfl

theorem com_join' (c : Dev nD) (f : Buf (Elt F) ((comM : Memref sig .tc .vmem S8x512 .f32).view.loc (c : Thread nD τ))) :
    iprop(rowPts c c f ∗ bigSep (Finset.univ.erase c) fun r => rowPts c r f) ⊢ (comPts c f : sProp 𝕄) := by
  rw [com_rows, BI.bigSep_univ_split c]; exact .rfl

theorem positions_split (c : Dev nD) : positions (F := F) c = iprop(atPos ER (barCell c) 0 ∅ 0
    ∗ (atPos ER (sendCell c c) 0 ∅ 0 ∗ bigSep (Finset.univ.erase c) fun q => atPos ER (sendCell c q) 0 ∅ 0)
    ∗ (atPos ER (recvCell c c) 0 ∅ 0 ∗ bigSep (Finset.univ.erase c) fun q => atPos ER (recvCell c q) 0 ∅ 0)) := by
  unfold positions
  rw [bigSep_CK, BI.bigSep_univ_split c, BI.bigSep_univ_split c]
  rfl

theorem close_sends (K : Dev nD × CK → ℕ) (c : Dev nD) :
    iprop(records (F := F) m K ∗ bigSep (Finset.univ.erase c) fun q => atPos ER (sendCell c q) 1 ∅ 0)
      ⊢ iprop(|={Set.univ}=> bigSep (Finset.univ.erase c) fun q => semVal (sendCell c q) 0) :=
  (bigSep_frame_persistent (R := records m K) fun q _ => (sep_mono_left (close_send_used m K c q)).trans wand_elim_left).trans (bigSep_fupd _ _)

theorem close_recvs (K : Dev nD × CK → ℕ) (c : Dev nD) :
    iprop(records (F := F) m K ∗ bigSep (Finset.univ.erase c) fun q => atPos ER (recvCell c q) 1 ∅ 0)
      ⊢ iprop(|={Set.univ}=> bigSep (Finset.univ.erase c) fun q => semVal (recvCell c q) 0) :=
  (bigSep_frame_persistent (R := records m K) fun q _ => (sep_mono_left (close_recv_used m K c q)).trans wand_elim_left).trans (bigSep_fupd _ _)

theorem own_row_done (c : Dev nD) (fr : Buf (Elt F) ((rowM c).view.loc (c : Thread nD τ))) :
    (((rowM c).view.loc (c : Thread nD τ) ↦[(rowM c).view.set]{fullShare}
        View.write (Elt F) ((Memref.whole cc0_scratch1 : Memref sig .tc .vmem S8x512 .f32).access (Rect.unit (s := S8x512) ![c.val, 0] S1x512.size (row_inb c))) fr
          (k0_pay4 (View.readAt (Elt F) (locM : Memref sig .tc .vmem S1x512 .f32).view (Rect.unit (s := S1x512) ![0, 0] S1x512.size inb_S1x512_S1x512_0_0).toLoadRect (devSum m c))) Finset.univ) : sProp 𝕄)
      ⊢ ((rowM c).view.loc (c : Thread nD τ) ↦[(rowM c).view.set]{fullShare} tableBuf m c) :=
  own_row_ent m c _ fun y => own_row_val (F := F) m c fr rfl y

theorem eraseQ_d0 (Φ : Dev nD → sProp 𝕄) : bigSep (Finset.univ.erase (0 : Dev nD)) Φ = iprop(Φ 6 ∗ Φ 2 ∗ Φ 5 ∗ Φ 7 ∗ Φ 1 ∗ Φ 3 ∗ Φ 4) := by
  rw [BI.bigSep_eq_bigSepL_of_eq [6, 2, 5, 7, 1, 3, 4] (by decide) (by decide)]; rfl
theorem sumQ_d0 (f : Dev nD → CellTallies nD τ sig Unit) : ∑ p ∈ Finset.univ.erase (0 : Dev nD), f p = f 6 + (f 2 + (f 5 + (f 7 + (f 1 + (f 3 + (f 4)))))) := by
  rw [show (Finset.univ.erase (0 : Dev nD)) = [6, 2, 5, 7, 1, 3, 4].toFinset by decide, List.sum_toFinset _ (by decide)]
  simp only [List.map_cons, List.map_nil, List.sum_cons, List.sum_nil, add_zero]
theorem duties_barQ_d0 : (rd (F := F) m).duties (barCell (0 : Dev nD)) 0 = {6, 2, 5, 7, 1, 3, 4} := by rw [duties_bar]; decide
theorem eraseQ_d1 (Φ : Dev nD → sProp 𝕄) : bigSep (Finset.univ.erase (1 : Dev nD)) Φ = iprop(Φ 7 ∗ Φ 3 ∗ Φ 4 ∗ Φ 6 ∗ Φ 0 ∗ Φ 2 ∗ Φ 5) := by
  rw [BI.bigSep_eq_bigSepL_of_eq [7, 3, 4, 6, 0, 2, 5] (by decide) (by decide)]; rfl
theorem sumQ_d1 (f : Dev nD → CellTallies nD τ sig Unit) : ∑ p ∈ Finset.univ.erase (1 : Dev nD), f p = f 7 + (f 3 + (f 4 + (f 6 + (f 0 + (f 2 + (f 5)))))) := by
  rw [show (Finset.univ.erase (1 : Dev nD)) = [7, 3, 4, 6, 0, 2, 5].toFinset by decide, List.sum_toFinset _ (by decide)]
  simp only [List.map_cons, List.map_nil, List.sum_cons, List.sum_nil, add_zero]
theorem duties_barQ_d1 : (rd (F := F) m).duties (barCell (1 : Dev nD)) 0 = {7, 3, 4, 6, 0, 2, 5} := by rw [duties_bar]; decide
theorem eraseQ_d2 (Φ : Dev nD → sProp 𝕄) : bigSep (Finset.univ.erase (2 : Dev nD)) Φ = iprop(Φ 4 ∗ Φ 0 ∗ Φ 7 ∗ Φ 5 ∗ Φ 3 ∗ Φ 1 ∗ Φ 6) := by
  rw [BI.bigSep_eq_bigSepL_of_eq [4, 0, 7, 5, 3, 1, 6] (by decide) (by decide)]; rfl
theorem sumQ_d2 (f : Dev nD → CellTallies nD τ sig Unit) : ∑ p ∈ Finset.univ.erase (2 : Dev nD), f p = f 4 + (f 0 + (f 7 + (f 5 + (f 3 + (f 1 + (f 6)))))) := by
  rw [show (Finset.univ.erase (2 : Dev nD)) = [4, 0, 7, 5, 3, 1, 6].toFinset by decide, List.sum_toFinset _ (by decide)]
  simp only [List.map_cons, List.map_nil, List.sum_cons, List.sum_nil, add_zero]
theorem duties_barQ_d2 : (rd (F := F) m).duties (barCell (2 : Dev nD)) 0 = {4, 0, 7, 5, 3, 1, 6} := by rw [duties_bar]; decide
theorem eraseQ_d3 (Φ : Dev nD → sProp 𝕄) : bigSep (Finset.univ.erase (3 : Dev nD)) Φ = iprop(Φ 5 ∗ Φ 1 ∗ Φ 6 ∗ Φ 4 ∗ Φ 2 ∗ Φ 0 ∗ Φ 7) := by
  rw [BI.bigSep_eq_bigSepL_of_eq [5, 1, 6, 4, 2, 0, 7] (by decide) (by decide)]; rfl
theorem sumQ_d3 (f : Dev nD → CellTallies nD τ sig Unit) : ∑ p ∈ Finset.univ.erase (3 : Dev nD), f p = f 5 + (f 1 + (f 6 + (f 4 + (f 2 + (f 0 + (f 7)))))) := by
  rw [show (Finset.univ.erase (3 : Dev nD)) = [5, 1, 6, 4, 2, 0, 7].toFinset by decide, List.sum_toFinset _ (by decide)]
  simp only [List.map_cons, List.map_nil, List.sum_cons, List.sum_nil, add_zero]
theorem duties_barQ_d3 : (rd (F := F) m).duties (barCell (3 : Dev nD)) 0 = {5, 1, 6, 4, 2, 0, 7} := by rw [duties_bar]; decide
theorem eraseQ_d4 (Φ : Dev nD → sProp 𝕄) : bigSep (Finset.univ.erase (4 : Dev nD)) Φ = iprop(Φ 2 ∗ Φ 6 ∗ Φ 1 ∗ Φ 3 ∗ Φ 5 ∗ Φ 7 ∗ Φ 0) := by
  rw [BI.bigSep_eq_bigSepL_of_eq [2, 6, 1, 3, 5, 7, 0] (by decide) (by decide)]; rfl
theorem sumQ_d4 (f : Dev nD → CellTallies nD τ sig Unit) : ∑ p ∈ Finset.univ.erase (4 : Dev nD), f p = f 2 + (f 6 + (f 1 + (f 3 + (f 5 + (f 7 + (f 0)))))) := by
  rw [show (Finset.univ.erase (4 : Dev nD)) = [2, 6, 1, 3, 5, 7, 0].toFinset by decide, List.sum_toFinset _ (by decide)]
  simp only [List.map_cons, List.map_nil, List.sum_cons, List.sum_nil, add_zero]
theorem duties_barQ_d4 : (rd (F := F) m).duties (barCell (4 : Dev nD)) 0 = {2, 6, 1, 3, 5, 7, 0} := by rw [duties_bar]; decide
theorem eraseQ_d5 (Φ : Dev nD → sProp 𝕄) : bigSep (Finset.univ.erase (5 : Dev nD)) Φ = iprop(Φ 3 ∗ Φ 7 ∗ Φ 0 ∗ Φ 2 ∗ Φ 4 ∗ Φ 6 ∗ Φ 1) := by
  rw [BI.bigSep_eq_bigSepL_of_eq [3, 7, 0, 2, 4, 6, 1] (by decide) (by decide)]; rfl
theorem sumQ_d5 (f : Dev nD → CellTallies nD τ sig Unit) : ∑ p ∈ Finset.univ.erase (5 : Dev nD), f p = f 3 + (f 7 + (f 0 + (f 2 + (f 4 + (f 6 + (f 1)))))) := by
  rw [show (Finset.univ.erase (5 : Dev nD)) = [3, 7, 0, 2, 4, 6, 1].toFinset by decide, List.sum_toFinset _ (by decide)]
  simp only [List.map_cons, List.map_nil, List.sum_cons, List.sum_nil, add_zero]
theorem duties_barQ_d5 : (rd (F := F) m).duties (barCell (5 : Dev nD)) 0 = {3, 7, 0, 2, 4, 6, 1} := by rw [duties_bar]; decide
theorem eraseQ_d6 (Φ : Dev nD → sProp 𝕄) : bigSep (Finset.univ.erase (6 : Dev nD)) Φ = iprop(Φ 0 ∗ Φ 4 ∗ Φ 3 ∗ Φ 1 ∗ Φ 7 ∗ Φ 5 ∗ Φ 2) := by
  rw [BI.bigSep_eq_bigSepL_of_eq [0, 4, 3, 1, 7, 5, 2] (by decide) (by decide)]; rfl
theorem sumQ_d6 (f : Dev nD → CellTallies nD τ sig Unit) : ∑ p ∈ Finset.univ.erase (6 : Dev nD), f p = f 0 + (f 4 + (f 3 + (f 1 + (f 7 + (f 5 + (f 2)))))) := by
  rw [show (Finset.univ.erase (6 : Dev nD)) = [0, 4, 3, 1, 7, 5, 2].toFinset by decide, List.sum_toFinset _ (by decide)]
  simp only [List.map_cons, List.map_nil, List.sum_cons, List.sum_nil, add_zero]
theorem duties_barQ_d6 : (rd (F := F) m).duties (barCell (6 : Dev nD)) 0 = {0, 4, 3, 1, 7, 5, 2} := by rw [duties_bar]; decide
theorem eraseQ_d7 (Φ : Dev nD → sProp 𝕄) : bigSep (Finset.univ.erase (7 : Dev nD)) Φ = iprop(Φ 1 ∗ Φ 5 ∗ Φ 2 ∗ Φ 0 ∗ Φ 6 ∗ Φ 4 ∗ Φ 3) := by
  rw [BI.bigSep_eq_bigSepL_of_eq [1, 5, 2, 0, 6, 4, 3] (by decide) (by decide)]; rfl
theorem sumQ_d7 (f : Dev nD → CellTallies nD τ sig Unit) : ∑ p ∈ Finset.univ.erase (7 : Dev nD), f p = f 1 + (f 5 + (f 2 + (f 0 + (f 6 + (f 4 + (f 3)))))) := by
  rw [show (Finset.univ.erase (7 : Dev nD)) = [1, 5, 2, 0, 6, 4, 3].toFinset by decide, List.sum_toFinset _ (by decide)]
  simp only [List.map_cons, List.map_nil, List.sum_cons, List.sum_nil, add_zero]
theorem duties_barQ_d7 : (rd (F := F) m).duties (barCell (7 : Dev nD)) 0 = {1, 5, 2, 0, 6, 4, 3} := by rw [duties_bar]; decide

attribute [local sl_rounds] duties_barQ_d0 duties_barQ_d1 duties_barQ_d2 duties_barQ_d3 duties_barQ_d4 duties_barQ_d5 duties_barQ_d6 duties_barQ_d7 amount_bar payload_bar_raw3 expect_bar
  duties_send duties_recv amount_send amount_recv expect_send expect_recv payload_send_raw payload_recv_raw

set_option maxHeartbeats 4000000 in
theorem run3 (c : Dev nD) : Run3 m ρ c := by
  intro arg1 harg1 arg2 harg2 x o a ha Kt
  unfold Φmid creds sendToks Dat.owesAt Pipeline.owesWithin owns
  rw [positions_split]
  have hmw := mayWait_bar (F := F) c
  rw [show (dats m ρ 0 c).owed t0_3.castSucc = sendO c (Finset.univ.erase c) from rfl]
  unfold sendO at hmw ⊢
  have hsplit := acc_split' (F := F) c (devSum m c)
  have hjoin := acc_join' (F := F) c (sumBuf m c)
  have hcom := com_join' (F := F) c (tableBuf m c)
  have hout := out_store (F := F) m arg2 (harg2.unread o) c (h1 := inb_S1x512_S1x512_0_0) (h2 := inb_S8x512_S8x512_0_0)
  iintro ⟨⟨⟨%K, #Hrec⟩, ⟨Hpb, ⟨Hpsc, Hpss⟩, ⟨Hprc, Hprs⟩⟩, Htoks, ⟨Hcb, Hcreds⟩, #Hlev, Hl, ⟨%fr, Hrow⟩⟩, ⟨%W, %hW, HO⟩, ⟨%f0, %hf0, H0⟩, ⟨%f1, %hf1, H1⟩, Hk⟩
  obtain rfl := harg1.eq_unread hf0; obtain rfl := harg2.eq_unread hf1
  have hsend := fun (q : Dev nD) (hq : q ≠ c) => @send_rec F _ m K c q hq
  have hown := own_row_done (F := F) m c fr
  have hcss := close_send_self (F := F) m K c
  have hcrs := close_recv_self (F := F) m K c
  have hcs := close_sends (F := F) m K c
  have hcr := close_recvs (F := F) m K c
  ihave ⟨#HIb, #HRb⟩ := (rec_bar3 m K c) $$ Hrec
  ihave ⟨#HIr0, #HRr0⟩ := (rec_recv3 m K c 0) $$ Hrec
  ihave ⟨#HIs0, #HRs0⟩ := (rec_send3 m K c 0) $$ Hrec
  ihave ⟨#HIr1, #HRr1⟩ := (rec_recv3 m K c 1) $$ Hrec
  ihave ⟨#HIs1, #HRs1⟩ := (rec_send3 m K c 1) $$ Hrec
  ihave ⟨#HIr2, #HRr2⟩ := (rec_recv3 m K c 2) $$ Hrec
  ihave ⟨#HIs2, #HRs2⟩ := (rec_send3 m K c 2) $$ Hrec
  ihave ⟨#HIr3, #HRr3⟩ := (rec_recv3 m K c 3) $$ Hrec
  ihave ⟨#HIs3, #HRs3⟩ := (rec_send3 m K c 3) $$ Hrec
  ihave ⟨#HIr4, #HRr4⟩ := (rec_recv3 m K c 4) $$ Hrec
  ihave ⟨#HIs4, #HRs4⟩ := (rec_send3 m K c 4) $$ Hrec
  ihave ⟨#HIr5, #HRr5⟩ := (rec_recv3 m K c 5) $$ Hrec
  ihave ⟨#HIs5, #HRs5⟩ := (rec_send3 m K c 5) $$ Hrec
  ihave ⟨#HIr6, #HRr6⟩ := (rec_recv3 m K c 6) $$ Hrec
  ihave ⟨#HIs6, #HRs6⟩ := (rec_send3 m K c 6) $$ Hrec
  ihave ⟨#HIr7, #HRr7⟩ := (rec_recv3 m K c 7) $$ Hrec
  ihave ⟨#HIs7, #HRs7⟩ := (rec_send3 m K c 7) $$ Hrec
  have h8 : ∀ d : Dev nD, d = 0 ∨ d = 1 ∨ d = 2 ∨ d = 3 ∨ d = 4 ∨ d = 5 ∨ d = 6 ∨ d = 7 := by decide
  rcases h8 c with rfl | rfl | rfl | rfl | rfl | rfl | rfl | rfl
  all_goals
    simp only [eraseQ_d0, eraseQ_d1, eraseQ_d2, eraseQ_d3, eraseQ_d4, eraseQ_d5, eraseQ_d6, eraseQ_d7, sumQ_d0, sumQ_d1, sumQ_d2, sumQ_d3, sumQ_d4, sumQ_d5, sumQ_d6, sumQ_d7] at hmw hsplit hjoin hcom hcs hcr ⊢
    icases Htoks with ⟨⟨Htr1, Hts1⟩, ⟨Htr2, Hts2⟩, ⟨Htr3, Hts3⟩, ⟨Htr4, Hts4⟩, ⟨Htr5, Hts5⟩, ⟨Htr6, Hts6⟩, ⟨Htr7, Hts7⟩⟩
    icases Hcreds with ⟨Hc1, Hc2, Hc3, Hc4, Hc5, Hc6, Hc7⟩
    icases Hpss with ⟨Hps1, Hps2, Hps3, Hps4, Hps5, Hps6, Hps7⟩
    icases Hprs with ⟨Hpr1, Hpr2, Hpr3, Hpr4, Hpr5, Hpr6, Hpr7⟩
    ihave #Hmw := hmw $$ Hlev
    unfold bodyOn
    simp only [cc0_body_eq_skeleton]; unfold cc0_body_skel
    unfold locPts at hsplit hjoin ⊢
    unfold rowPts at hcom ⊢
    unfold comPts at hcom
    sl_exec (disch := first | decide)
    sl_unfold_words
    rw [acc_store (F := F) arg1 harg1 x a, ha]
    ihave ⟨Hlr, Htc, Ht1, Ht2, Ht3, Ht4, Ht5, Ht6, Ht7⟩ := hsplit $$ Hl
    ihave ⟨⟨⟨%g1, Hd1⟩, -⟩, ⟨⟨%g2, Hd2⟩, -⟩, ⟨⟨%g3, Hd3⟩, -⟩, ⟨⟨%g4, Hd4⟩, -⟩, ⟨⟨%g5, Hd5⟩, -⟩, ⟨⟨%g6, Hd6⟩, -⟩, ⟨⟨%g7, Hd7⟩, -⟩⟩ := (sep7 _ _ _ _ _ _ _) $$ Hpb_pay1
    iapply (hsend _ (by decide) g1 _ (add_comm _ _)) $$ [Ht1 Hd1 HO Hts1 Htr1]
    · isplitr; · iexact Hrec
      isplitl [Ht1]; · iexact Ht1
      isplitl [Hd1]; · iexact Hd1
      isplitl [HO]; · iexact HO
      isplitl [Hts1]; · iexact Hts1
      iexact Htr1
    iintro ⟨Hcs1, HO⟩
    sl_exec (disch := first | decide)
    iapply (hsend _ (by decide) g2 _ (add_comm _ _)) $$ [Ht2 Hd2 HO Hts2 Htr2]
    · isplitr; · iexact Hrec
      isplitl [Ht2]; · iexact Ht2
      isplitl [Hd2]; · iexact Hd2
      isplitl [HO]; · iexact HO
      isplitl [Hts2]; · iexact Hts2
      iexact Htr2
    iintro ⟨Hcs2, HO⟩
    sl_exec (disch := first | decide)
    iapply (hsend _ (by decide) g3 _ (add_comm _ _)) $$ [Ht3 Hd3 HO Hts3 Htr3]
    · isplitr; · iexact Hrec
      isplitl [Ht3]; · iexact Ht3
      isplitl [Hd3]; · iexact Hd3
      isplitl [HO]; · iexact HO
      isplitl [Hts3]; · iexact Hts3
      iexact Htr3
    iintro ⟨Hcs3, HO⟩
    sl_exec (disch := first | decide)
    iapply (hsend _ (by decide) g4 _ (add_comm _ _)) $$ [Ht4 Hd4 HO Hts4 Htr4]
    · isplitr; · iexact Hrec
      isplitl [Ht4]; · iexact Ht4
      isplitl [Hd4]; · iexact Hd4
      isplitl [HO]; · iexact HO
      isplitl [Hts4]; · iexact Hts4
      iexact Htr4
    iintro ⟨Hcs4, HO⟩
    sl_exec (disch := first | decide)
    iapply (hsend _ (by decide) g5 _ (add_comm _ _)) $$ [Ht5 Hd5 HO Hts5 Htr5]
    · isplitr; · iexact Hrec
      isplitl [Ht5]; · iexact Ht5
      isplitl [Hd5]; · iexact Hd5
      isplitl [HO]; · iexact HO
      isplitl [Hts5]; · iexact Hts5
      iexact Htr5
    iintro ⟨Hcs5, HO⟩
    sl_exec (disch := first | decide)
    iapply (hsend _ (by decide) g6 _ (add_comm _ _)) $$ [Ht6 Hd6 HO Hts6 Htr6]
    · isplitr; · iexact Hrec
      isplitl [Ht6]; · iexact Ht6
      isplitl [Hd6]; · iexact Hd6
      isplitl [HO]; · iexact HO
      isplitl [Hts6]; · iexact Hts6
      iexact Htr6
    iintro ⟨Hcs6, HO⟩
    sl_exec (disch := first | decide)
    iapply (hsend _ (by decide) g7 0 (zero_add _).symm) $$ [Ht7 Hd7 HO Hts7 Htr7]
    · isplitr; · iexact Hrec
      isplitl [Ht7]; · iexact Ht7
      isplitl [Hd7]; · iexact Hd7
      isplitl [HO]; · iexact HO
      isplitl [Hts7]; · iexact Hts7
      iexact Htr7
    iintro ⟨Hcs7, HO⟩
    sl_exec (disch := first | decide)
    sl_unfold_words
    ihave Hrow := hown $$ [Hrow]
    · iexact Hrow
    ihave Hcom := hcom $$ [Hrow Hpr1_pay1 Hpr2_pay1 Hpr3_pay1 Hpr4_pay1 Hpr5_pay1 Hpr6_pay1 Hpr7_pay1]
    · iframe
    sl_exec (disch := first | decide)
    imod hcs $$ [Hps1 Hps2 Hps3 Hps4 Hps5 Hps6 Hps7] with ⟨Hvs1, Hvs2, Hvs3, Hvs4, Hvs5, Hvs6, Hvs7⟩
    · isplitr; · iexact Hrec
      iframe
    imod hcss $$ Hrec Hpsc with Hvsc
    imod hcr $$ [Hpr1 Hpr2 Hpr3 Hpr4 Hpr5 Hpr6 Hpr7] with ⟨Hvr1, Hvr2, Hvr3, Hvr4, Hvr5, Hvr6, Hvr7⟩
    · isplitr; · iexact Hrec
      iframe
    imod hcrs $$ Hrec Hprc with Hvrc
    ihave Hl := hjoin $$ [Hlr Htc Hps1_pay1 Hps2_pay1 Hps3_pay1 Hps4_pay1 Hps5_pay1 Hps6_pay1 Hps7_pay1]
    · unfold sumBuf; iframe
    sl_step
    iapply Hk
    unfold Φ₄ locPts comPts
    rw [ownSems0_eq3]
    isplitr [HO H0 H1]; · iframe
    isplitl [HO]
    · iexists _; isplitr
      rotate_left
      · iexact HO
      · ipureintro; exact fun _ _ => Or.inl trivial
    isplitl [H0]
    · iexists _; isplitr; · (ipureintro; exact harg1.read_unread _)
      iexact H0
    iexists _; isplitr
    rotate_left
    · iexact H1
    · ipureintro; exact hout

end Cert.Kernel.Hand
end
-- ==== Proof.Bits.Run.lean ====
import proofs.«901074_g7700000000001075_dist_sum_ax0_shard0_i_m1024_n512_v7x_i8_f32_1_alg».proof.Proof.Bits.Body
import proofs.«901074_g7700000000001075_dist_sum_ax0_shard0_i_m1024_n512_v7x_i8_f32_1_alg».proof.Proof.Bits.Body0
import proofs.«901074_g7700000000001075_dist_sum_ax0_shard0_i_m1024_n512_v7x_i8_f32_1_alg».proof.Proof.Bits.Body3
import proofs.«901074_g7700000000001075_dist_sum_ax0_shard0_i_m1024_n512_v7x_i8_f32_1_alg».proof.Proof.Bits.Launch

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem run_main : θ_run (defs (F := F)) (onTc (τ := τ) (main (F := F))) ⟨m, fun _ => 0, ρ⟩ (RunPost m) :=
  run_of_body m ρ fun c => body_obligation_of m ρ c
    (run0 m ρ c)
    (run3 m ρ c)

end Cert.Kernel.Hand

end
-- ==== Proof.RefFrame.lean ====
import proofs.«901074_g7700000000001075_dist_sum_ax0_shard0_i_m1024_n512_v7x_i8_f32_1_alg».proof.Defs
import proofs.«901074_g7700000000001075_dist_sum_ax0_shard0_i_m1024_n512_v7x_i8_f32_1_alg».proof.Proof.Gen.ReferenceIdeal
import proofs.«901074_g7700000000001075_dist_sum_ax0_shard0_i_m1024_n512_v7x_i8_f32_1_alg».proof.Proof.Gen.Pre_finite_inputs_ReferenceIdeal
import proofs.«901074_g7700000000001075_dist_sum_ax0_shard0_i_m1024_n512_v7x_i8_f32_1_alg».proof.Proof.Gen.ReferenceIdeal.Run
import proofs.«901074_g7700000000001075_dist_sum_ax0_shard0_i_m1024_n512_v7x_i8_f32_1_alg».proof.Proof.Gen.ReferenceIdeal.Read
import Idealize.ShloMosaic.Lib.ValueIdx

noncomputable section

namespace Cert.ReferenceIdeal.Hand

open Idealize.ShloMosaic Idealize.SL.Sem Idealize.ShloMosaic.ValueIdx
open Cert.ReferenceIdeal Cert.ReferenceIdeal.Gen

def colSums (X : FVec Ideal S8192x512 .f32) : FVec Ideal S1x512 .f32 :=
  fun i => ∑ k : Fin 8192, X (ix2 k (i 1))

theorem ref_frame : Cert.frame_ReferenceIdeal := fun m ρ _ =>
  (θ_run Cert.ReferenceIdeal.defs _ _).mono (fun _ h c => (h c).2) (Cert.ReferenceIdeal.Value.run (F := Ideal) m ρ)

theorem idx_eq (i : S1x512.Idx) (k : Fin 8192) :
    Read.idx_main_v0 (Read.idx_main_v1 i) k = ix2 k (i 1) :=
  funext fun a => Fin.ext (by match a with | ⟨0, _⟩ => rfl | ⟨1, _⟩ => rfl)

theorem ref_value (X : FVec Ideal S8192x512 .f32) :
    broadcastInDim S1x512 ![1] bcast_S512_S1x512_1
        (Host.reduceAdd (F := Ideal) X (constant S_ .f32 0x00000000#32) reducesTo_S8192x512_S512_d0 h_S_)
      = colSums X := by
  rw [Read.val_main_v1_eq]
  funext i
  rw [Read.val_main_v1_apply, Read.val_main_v0_apply, Read.val_main_cst_apply]
  simp only [idx_eq, Ideal.ofBits_def, Ideal.ofBits_zero_f32, zero_add]
  rfl

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = colSums (m ((c.tc : Thread nD τ).loc main_arg0))
      ∧ r.2.mem ((c.tc : Thread nD τ).loc main_arg0) = m ((c.tc : Thread nD τ).loc main_arg0) :=
  (θ_run defs _ _).mono (fun _ h c => ⟨(h c).1.trans (ref_value _), (h c).2⟩)
    (Cert.ReferenceIdeal.Value.run (F := Ideal) m ρ)

end Cert.ReferenceIdeal.Hand

end
-- ==== Proof.LaneSums.lean ====
import proofs.«901074_g7700000000001075_dist_sum_ax0_shard0_i_m1024_n512_v7x_i8_f32_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen

theorem pay1_apply (x : Vec Ideal S256x512 .f32) (u : Fin 1) (j : Fin 512) :
    k0_pay1 (F := Ideal) x (ix2 u j) = ∑ r : Fin 256, (show EReal from x (ix2 r j)) := by
  unfold k0_pay1
  refine (shapeCast_a_1a_apply _ _ u j).trans ?_
  refine (Ideal.multiReduction_add_single _ _ reduces_S256x512_S512 _ _ (ix1 j)).trans ?_
  refine Finset.sum_congr rfl fun r _ => ?_
  rw [shapeCast_self]
  exact congrArg x (funext fun a => Fin.ext (by match a with | ⟨0, _⟩ => rfl | ⟨1, _⟩ => rfl))

theorem pay2_apply (x : Vec Ideal S256x512 .f32) (u : Fin 1) (j : Fin 512) :
    k0_pay2 (F := Ideal) x (ix2 u j) = ∑ r : Fin 256, (show EReal from x (ix2 r j)) := by
  unfold k0_pay2
  rw [shapeCast_self]
  exact pay1_apply x u j

theorem pay3_apply (x : Vec Ideal S256x512 .f32) (a : Vec Ideal S1x512 .f32) (u : Fin 1) (j : Fin 512) :
    k0_pay3 (F := Ideal) x a (ix2 u j)
      = (show EReal from a (ix2 u j)) + ∑ r : Fin 256, (show EReal from x (ix2 r j)) := by
  unfold k0_pay3
  rw [shapeCast_self]
  exact congrArg (fun z : EReal => (show EReal from a (ix2 u j)) + z) (pay1_apply x u j)

theorem pay5_apply (T : Vec Ideal S8x512 .f32) (u : Fin 1) (j : Fin 512) :
    k0_pay5 (F := Ideal) T (ix2 u j) = ∑ q : Fin 8, (show EReal from T (ix2 q j)) := by
  unfold k0_pay5
  refine (shapeCast_a_1a_apply _ _ u j).trans ?_
  refine (Ideal.multiReduction_add_single _ _ reduces_S8x512_S512 _ _ (ix1 j)).trans ?_
  refine Finset.sum_congr rfl fun q _ => ?_
  exact congrArg T (funext fun a => Fin.ext (by match a with | ⟨0, _⟩ => rfl | ⟨1, _⟩ => rfl))

end Cert.KernelIdeal.Hand

end
-- ==== Proof.BlockRows.lean ====
import proofs.«901074_g7700000000001075_dist_sum_ax0_shard0_i_m1024_n512_v7x_i8_f32_1_alg».proof.Proof.Spec
import Idealize.ShloMosaic.Lib.Layout
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

def blkPt (t : Fin 4) : Fin cfg0.N := ⟨t.val, by rw [show cfg0.N = 4 from N_0]; exact t.isLt⟩

theorem index_facts : ∀ t : Fin cfg0.N, win0_0.index t (0 : Fin 2) = t.val ∧ win0_0.index t (1 : Fin 2) = 0 :=
  (by decide +kernel : ∀ t : Fin grid0.N, _)

theorem xblk_apply (c : Dev nD) (t : Fin 4) (r : Fin 256) (j : Fin 512) :
    xblk m c (blkPt t) (ix2 r j)
      = m ((c.tc : Thread nD τ).loc main_arg0) (ix2 (⟨256 * t.val + r.val, by omega⟩ : Fin 1024) j) := by
  show V m c main_arg0 (((cfg0.win 0).blk (blkPt t)).view.emb (ix2 r j)) = _
  refine congrArg _ (funext fun a => Fin.ext ?_)
  obtain ⟨e0, e1⟩ := index_facts (blkPt t)
  have e2 : (blkPt t).val = t.val := rfl
  match a with
  | ⟨0, _⟩ =>
    show win0_0.index (blkPt t) (0 : Fin 2) * 256 + 1 * r.val = 256 * t.val + r.val
    omega
  | ⟨1, _⟩ =>
    show win0_0.index (blkPt t) (1 : Fin 2) * 512 + 1 * j.val = j.val
    omega

theorem block_apply {α : Type} (X : (⟨2, ![8192, 512]⟩ : Shape).Idx → α) (c : Fin 8) (s : Fin 1024) (j : Fin 512) :
    (Layout.block ⟨2, ![1024, 512]⟩ ⟨2, ![8192, 512]⟩ 0 8 c X) (ix2 s j)
      = X (ix2 (⟨1024 * c.val + s.val, by omega⟩ : Fin 8192) j) := by
  show X _ = X _
  refine congrArg X (funext fun a => Fin.ext ?_)
  match a with
  | ⟨0, _⟩ =>
    show c.val * 1024 + s.val = 1024 * c.val + s.val
    omega
  | ⟨1, _⟩ => rfl

end Cert.KernelIdeal.Hand

end
-- ==== Proof.RowSplit.lean ====
import Mathlib.Algebra.BigOperators.Fin
import Mathlib.Algebra.BigOperators.Group.Finset.Sigma
import Mathlib.Data.Fintype.BigOperators

namespace Cert.Hand

def rowOf (q : Fin 8) (t : Fin 4) (r : Fin 256) : Fin 8192 :=
  ⟨1024 * q.val + 256 * t.val + r.val, by omega⟩

def rowEquiv : Fin 8 × Fin 4 × Fin 256 ≃ Fin 8192 where
  toFun p := rowOf p.1 p.2.1 p.2.2
  invFun k := (⟨k.val / 1024, by omega⟩, ⟨k.val % 1024 / 256, by omega⟩, ⟨k.val % 256, by omega⟩)
  left_inv p := by
    obtain ⟨q, t, r⟩ := p
    refine Prod.ext (Fin.ext ?_) (Prod.ext (Fin.ext ?_) (Fin.ext ?_)) <;> simp only [rowOf] <;> omega
  right_inv k := Fin.ext (by simp only [rowOf]; omega)

theorem sum_rows {M : Type*} [AddCommMonoid M] (f : Fin 8192 → M) :
    ∑ k : Fin 8192, f k = ∑ q : Fin 8, ∑ t : Fin 4, ∑ r : Fin 256, f (rowOf q t r) := by
  rw [← Equiv.sum_comp rowEquiv f, Fintype.sum_prod_type]
  refine Finset.sum_congr rfl fun q _ => ?_
  rw [Fintype.sum_prod_type]
  rfl

end Cert.Hand
-- ==== Proof.ColumnSums.lean ====
import proofs.«901074_g7700000000001075_dist_sum_ax0_shard0_i_m1024_n512_v7x_i8_f32_1_alg».proof.Proof.Spec
import proofs.«901074_g7700000000001075_dist_sum_ax0_shard0_i_m1024_n512_v7x_i8_f32_1_alg».proof.Proof.LaneSums
import proofs.«901074_g7700000000001075_dist_sum_ax0_shard0_i_m1024_n512_v7x_i8_f32_1_alg».proof.Proof.BlockRows
import proofs.«901074_g7700000000001075_dist_sum_ax0_shard0_i_m1024_n512_v7x_i8_f32_1_alg».proof.Proof.RowSplit
import proofs.«901074_g7700000000001075_dist_sum_ax0_shard0_i_m1024_n512_v7x_i8_f32_1_alg».proof.Proof.RefFrame

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

def blkSum (c : Dev nD) (j : Fin 512) (t : Fin 4) : EReal :=
  ∑ r : Fin 256, (show EReal from xblk m c (blkPt t) (ix2 r j))

theorem accN_zero (c : Dev nD) (h : 0 < 4) (u : Fin 1) (j : Fin 512) :
    accN m c 0 h (ix2 u j) = blkSum m c j 0 := by
  rw [accN]
  exact pay2_apply _ u j

theorem accN_succ (c : Dev nD) (t : ℕ) (h : t + 1 < 4) (u : Fin 1) (j : Fin 512) :
    accN m c (t + 1) h (ix2 u j)
      = (show EReal from accN m c t (by omega) (ix2 u j)) + blkSum m c j ⟨t + 1, h⟩ := by
  rw [accN]
  exact pay3_apply _ _ u j

theorem devSum_apply (c : Dev nD) (u : Fin 1) (j : Fin 512) :
    devSum m c (ix2 u j) = ∑ t : Fin 4, blkSum m c j t := by
  have h3 : devSum m c (ix2 u j)
      = (show EReal from accN m c 2 (by decide) (ix2 u j)) + blkSum m c j 3 := accN_succ m c 2 (by decide) u j
  have h2 : accN m c 2 (by decide) (ix2 u j)
      = (show EReal from accN m c 1 (by decide) (ix2 u j)) + blkSum m c j 2 := accN_succ m c 1 (by decide) u j
  have h1 : accN m c 1 (by decide) (ix2 u j)
      = (show EReal from accN m c 0 (by decide) (ix2 u j)) + blkSum m c j 1 := accN_succ m c 0 (by decide) u j
  have h0 : accN m c 0 (by decide) (ix2 u j) = blkSum m c j 0 := accN_zero m c (by decide) u j
  rw [h3, h2, h1, h0, Fin.sum_univ_four]

theorem total_apply (u : Fin 1) (j : Fin 512) :
    total m (ix2 u j) = ∑ q : Fin 8, ∑ t : Fin 4, blkSum m q j t := by
  unfold total
  rw [pay5_apply]
  refine Finset.sum_congr rfl fun q _ => ?_
  exact devSum_apply m q 0 j

theorem total_eq_colSums (X : FVec Ideal Cert.ReferenceIdeal.S8192x512 .f32)
    (hX : ∀ c : Dev nD, m ((c.tc : Thread nD τ).loc main_arg0)
      = Layout.block ⟨2, ![1024, 512]⟩ ⟨2, ![8192, 512]⟩ 0 8 c X) :
    total m = Cert.ReferenceIdeal.Hand.colSums X := by
  funext i
  obtain ⟨u, j, rfl⟩ : ∃ (u : Fin 1) (j : Fin 512), i = ix2 u j := ⟨i 0, i 1, eq_ix2 i⟩
  rw [total_apply]
  show _ = ∑ k : Fin 8192, X (ix2 k j)
  rw [Cert.Hand.sum_rows]
  refine Finset.sum_congr rfl fun q _ => Finset.sum_congr rfl fun t _ => Finset.sum_congr rfl fun r _ => ?_
  show xblk m q (blkPt t) (ix2 r j) = X (ix2 (Cert.Hand.rowOf q t r) j)
  rw [xblk_apply, hX q, block_apply]
  refine congrArg X (congrArg (fun k => ix2 k j) (Fin.ext ?_))
  show 1024 * q.val + (256 * t.val + r.val) = 1024 * q.val + 256 * t.val + r.val
  omega

end Cert.KernelIdeal.Hand

end
-- ==== Proof.Algebraic.lean ====
import proofs.«901074_g7700000000001075_dist_sum_ax0_shard0_i_m1024_n512_v7x_i8_f32_1_alg».proof.Defs
import proofs.«901074_g7700000000001075_dist_sum_ax0_shard0_i_m1024_n512_v7x_i8_f32_1_alg».proof.Proof.Spec
import proofs.«901074_g7700000000001075_dist_sum_ax0_shard0_i_m1024_n512_v7x_i8_f32_1_alg».proof.Proof.ColumnSums
import proofs.«901074_g7700000000001075_dist_sum_ax0_shard0_i_m1024_n512_v7x_i8_f32_1_alg».proof.Proof.RefFrame
import proofs.«901074_g7700000000001075_dist_sum_ax0_shard0_i_m1024_n512_v7x_i8_f32_1_alg».proof.Proof.Gen.KernelIdeal
import proofs.«901074_g7700000000001075_dist_sum_ax0_shard0_i_m1024_n512_v7x_i8_f32_1_alg».proof.Proof.Gen.ReferenceIdeal
import proofs.«901074_g7700000000001075_dist_sum_ax0_shard0_i_m1024_n512_v7x_i8_f32_1_alg».proof.Proof.Gen.Pre_finite_inputs_Kernel

noncomputable section

namespace Cert.Hand

open Idealize.ShloMosaic Idealize.ShloMosaic.TcCoe Idealize.SL.Sem

theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (Cert.KernelIdeal.Hand.RunPost m)) :
    Cert.algebraic_KernelIdeal_ReferenceIdeal := by
  intro m g m' g' _ hagree
  refine ⟨Cert.ReferenceIdeal.Hand.colSums
    (m' (((0 : Dev Cert.ReferenceIdeal.nD).tc : Thread Cert.ReferenceIdeal.nD Cert.ReferenceIdeal.τ).loc
      Cert.ReferenceIdeal.main_arg0)), ?_, ?_⟩
  · refine (θ_run (Cert.KernelIdeal.defs (F := Ideal)) _ _).mono
      (fun r h c => ⟨(h c).1.trans ?_, (h c).2⟩) (hrun m g)
    exact Cert.KernelIdeal.Hand.total_eq_colSums m _ hagree
  · exact (θ_run (Cert.ReferenceIdeal.defs (F := Ideal)) _ _).mono (fun r h => h 0)
      (Cert.ReferenceIdeal.Hand.ref_run m' g')

end Cert.Hand

end
-- ==== Proof.lean ====
import proofs.«901074_g7700000000001075_dist_sum_ax0_shard0_i_m1024_n512_v7x_i8_f32_1_alg».proof.Defs
import proofs.«901074_g7700000000001075_dist_sum_ax0_shard0_i_m1024_n512_v7x_i8_f32_1_alg».proof.Proof.Gen.Kernel
import proofs.«901074_g7700000000001075_dist_sum_ax0_shard0_i_m1024_n512_v7x_i8_f32_1_alg».proof.Proof.Gen.Kernel.Skeleton
import proofs.«901074_g7700000000001075_dist_sum_ax0_shard0_i_m1024_n512_v7x_i8_f32_1_alg».proof.Proof.Gen.Kernel.Launch
import proofs.«901074_g7700000000001075_dist_sum_ax0_shard0_i_m1024_n512_v7x_i8_f32_1_alg».proof.Proof.Gen.Kernel.Points
import proofs.«901074_g7700000000001075_dist_sum_ax0_shard0_i_m1024_n512_v7x_i8_f32_1_alg».proof.Proof.Gen.Kernel.Frame
import proofs.«901074_g7700000000001075_dist_sum_ax0_shard0_i_m1024_n512_v7x_i8_f32_1_alg».proof.Proof.Gen.KernelIdeal
import proofs.«901074_g7700000000001075_dist_sum_ax0_shard0_i_m1024_n512_v7x_i8_f32_1_alg».proof.Proof.Gen.KernelIdeal.Skeleton
import proofs.«901074_g7700000000001075_dist_sum_ax0_shard0_i_m1024_n512_v7x_i8_f32_1_alg».proof.Proof.Gen.KernelIdeal.Launch
import proofs.«901074_g7700000000001075_dist_sum_ax0_shard0_i_m1024_n512_v7x_i8_f32_1_alg».proof.Proof.Gen.KernelIdeal.Points
import proofs.«901074_g7700000000001075_dist_sum_ax0_shard0_i_m1024_n512_v7x_i8_f32_1_alg».proof.Proof.Gen.KernelIdeal.Frame
import proofs.«901074_g7700000000001075_dist_sum_ax0_shard0_i_m1024_n512_v7x_i8_f32_1_alg».proof.Proof.Gen.ReferenceIdeal
import proofs.«901074_g7700000000001075_dist_sum_ax0_shard0_i_m1024_n512_v7x_i8_f32_1_alg».proof.Proof.Gen.Pre_finite_inputs_Kernel
import proofs.«901074_g7700000000001075_dist_sum_ax0_shard0_i_m1024_n512_v7x_i8_f32_1_alg».proof.Proof.Gen.Pre_finite_inputs_ReferenceIdeal
import proofs.«901074_g7700000000001075_dist_sum_ax0_shard0_i_m1024_n512_v7x_i8_f32_1_alg».proof.Proof.Run
import proofs.«901074_g7700000000001075_dist_sum_ax0_shard0_i_m1024_n512_v7x_i8_f32_1_alg».proof.Proof.Bits.Run
import proofs.«901074_g7700000000001075_dist_sum_ax0_shard0_i_m1024_n512_v7x_i8_f32_1_alg».proof.Proof.RefFrame
import proofs.«901074_g7700000000001075_dist_sum_ax0_shard0_i_m1024_n512_v7x_i8_f32_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => (θ_run _ _ _).mono (fun _ h c => (h c).2) (Cert.Kernel.Hand.run_main (F := Bits) m ρ),
  fun m ρ _ => (θ_run _ _ _).mono (fun _ h c => (h c).2) (Cert.KernelIdeal.Hand.run_main (F := Ideal) m ρ),
  Cert.ReferenceIdeal.Hand.ref_frame,
  trivial,
  Cert.Hand.algebraic_of_run fun m ρ => Cert.KernelIdeal.Hand.run_main m ρ⟩

end Cert.Proof

end
